-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256x256 : Shape := ⟨2, ![256, 256]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  main_v53

def fn_part2 {F : FTy → Type} [FloatOps F] (main_arg9 : FVec F S256 .f32) (main_arg10 : FVec F S256 .f32) (main_arg11 : FVec F S256x256 .f32) (main_arg12 : FVec F S256x256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256x256 .f32 := Host.absf main_arg12
  let main_cst_18 : FVec F S_ .f32 := constant S_ .f32 0x7F800000#32
  let main_v50 : FVec F S256x256 .f32 := broadcastInDim S256x256 ![] bcast_S_S256x256 main_cst_18
  fn_part3 (F := F) main_v48 main_v49 main_v50

def fn_part1 {F : FTy → Type} [FloatOps F] (main_arg6 : FVec F S256 .f32) (main_arg7 : FVec F S256x256 .f32) (main_arg8 : FVec F S256x256 .f32) (main_arg9 : FVec F S256 .f32) (main_arg10 : FVec F S256 .f32) (main_arg11 : FVec F S256x256 .f32) (main_arg12 : FVec F S256x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x256 .f32) (main_arg4 : FVec F S256x256 .f32) (main_arg5 : FVec F S256 .f32) (main_arg6 : FVec F S256 .f32) (main_arg7 : FVec F S256x256 .f32) (main_arg8 : FVec F S256x256 .f32) (main_arg9 : FVec F S256 .f32) (main_arg10 : FVec F S256 .f32) (main_arg11 : FVec F S256x256 .f32) (main_arg12 : FVec F S256x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S2000x128 : Shape := ⟨2, ![2000, 128]⟩
abbrev S2000x256 : Shape := ⟨2, ![2000, 256]⟩
abbrev S1x256 : Shape := ⟨2, ![1, 256]⟩
abbrev S800000x256 : Shape := ⟨2, ![800000, 256]⟩
abbrev S50000x1 : Shape := ⟨2, ![50000, 1]⟩
abbrev S5000x256 : Shape := ⟨2, ![5000, 256]⟩
abbrev S5000x1 : Shape := ⟨2, ![5000, 1]⟩
abbrev S50000x768 : Shape := ⟨2, ![50000, 768]⟩

abbrev nBuf : Space → Nat
  | .hbm => 128
  | .vmem => 46
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S256x256, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256x256, .f32⟩
  | .hbm, ⟨12, _⟩ => ⟨S256x256, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x256, .f32⟩
  | .hbm, ⟨31, _⟩ => ⟨S_, .f32⟩
  | .hbm, ⟨32, _⟩ => ⟨S256, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S_, .i32⟩
  | .hbm, ⟨37, _⟩ => ⟨S_, .f32⟩
  | .hbm, ⟨38, _⟩ => ⟨S256, .f32⟩
  | .hbm, ⟨39, _⟩ => ⟨S1x256, .f32⟩
  | .hbm, ⟨40, _⟩ => ⟨S_, .f32⟩
  | .hbm, ⟨41, _⟩ => ⟨S1x256, .f32⟩
  | .hbm, ⟨42, _⟩ => ⟨S1x256, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S256, .f32⟩
  | .hbm, ⟨53, _⟩ => ⟨S_, .f32⟩
  | .hbm, ⟨54, _⟩ => ⟨S_, .i1⟩
  | .hbm, ⟨55, _⟩ => ⟨S_, .f32⟩
  | .hbm, ⟨56, _⟩ => ⟨S_, .f32⟩
  | .hbm, ⟨57, _⟩ => ⟨S256, .f32⟩
  | .hbm, ⟨58, _⟩ => ⟨S256, .f32⟩
  | .hbm, ⟨59, _⟩ => ⟨S1x256, .f32⟩
  | .hbm, ⟨60, _⟩ => ⟨S1x256, .f32⟩
  | .hbm, ⟨61, _⟩ => ⟨S1x256, .f32⟩
  | .hbm, ⟨62, _⟩ => ⟨S1x256, .f32⟩
  | .hbm, ⟨63, _⟩ => ⟨S50000x256, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x256, .f32⟩
  | .hbm, ⟨73, _⟩ => ⟨S_, .f32⟩
  | .hbm, ⟨74, _⟩ => ⟨S50000x256, .f32⟩
  | .hbm, ⟨75, _⟩ => ⟨S800000x1, .i32⟩
  | .hbm, ⟨76, _⟩ => ⟨S50000x256, .f32⟩
  | .hbm, ⟨77, _⟩ => ⟨S50000x256, .f32⟩
  | .hbm, ⟨78, _⟩ => ⟨S_, .f32⟩
  | .hbm, ⟨79, _⟩ => ⟨S256, .f32⟩
  | .hbm, ⟨80, _⟩ => ⟨S_, .f32⟩
  | .hbm, ⟨81, _⟩ => ⟨S256, .f32⟩
  | .hbm, ⟨82, _⟩ => ⟨S256, .f32⟩
  | .hbm, ⟨83, _⟩ => ⟨S_, .i32⟩
  | .hbm, ⟨84, _⟩ => ⟨S_, .f32⟩
  | .hbm, ⟨85, _⟩ => ⟨S256, .f32⟩
  | .hbm, ⟨86, _⟩ => ⟨S1x256, .f32⟩
  | .hbm, ⟨87, _⟩ => ⟨S_, .f32⟩
  | .hbm, ⟨88, _⟩ => ⟨S1x256, .f32⟩
  | .hbm, ⟨89, _⟩ => ⟨S1x256, .f32⟩
  | .hbm, ⟨90, _⟩ => ⟨S50000x256, .f32⟩
  | .hbm, ⟨91, _⟩ => ⟨S50000x256, .f32⟩
  | .hbm, ⟨92, _⟩ => ⟨S50000x256, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S256, .f32⟩
  | .hbm, ⟨98, _⟩ => ⟨S256, .f32⟩
  | .hbm, ⟨99, _⟩ => ⟨S256, .f32⟩
  | .hbm, ⟨100, _⟩ => ⟨S_, .f32⟩
  | .hbm, ⟨101, _⟩ => ⟨S_, .i1⟩
  | .hbm, ⟨102, _⟩ => ⟨S_, .f32⟩
  | .hbm, ⟨103, _⟩ => ⟨S_, .f32⟩
  | .hbm, ⟨104, _⟩ => ⟨S256, .f32⟩
  | .hbm, ⟨105, _⟩ => ⟨S256, .f32⟩
  | .hbm, ⟨106, _⟩ => ⟨S1x256, .f32⟩
  | .hbm, ⟨107, _⟩ => ⟨S1x256, .f32⟩
  | .hbm, ⟨108, _⟩ => ⟨S1x256, .f32⟩
  | .hbm, ⟨109, _⟩ => ⟨S1x256, .f32⟩
  | .hbm, ⟨110, _⟩ => ⟨S50000x256, .f32⟩
  | .hbm, ⟨111, _⟩ => ⟨S_, .i32⟩
  | .hbm, ⟨112, _⟩ => ⟨S800000, .i32⟩
  | .hbm, ⟨113, _⟩ => ⟨S800000, .i1⟩
  | .hbm, ⟨114, _⟩ => ⟨S_, .i32⟩
  | .hbm, ⟨115, _⟩ => ⟨S800000, .i32⟩
  | .hbm, ⟨116, _⟩ => ⟨S800000, .i32⟩
  | .hbm, ⟨117, _⟩ => ⟨S800000, .i32⟩
  | .hbm, ⟨118, _⟩ => ⟨S800000x1, .i32⟩
  | .hbm, ⟨119, _⟩ => ⟨S800000x256, .f32⟩
  | .hbm, ⟨120, _⟩ => ⟨S_, .f32⟩
  | .hbm, ⟨121, _⟩ => ⟨S50000x256, .f32⟩
  | .hbm, ⟨122, _⟩ => ⟨S800000x1, .i32⟩
  | .hbm, ⟨123, _⟩ => ⟨S50000x256, .f32⟩
  | .hbm, ⟨124, _⟩ => ⟨S50000x256, .f32⟩
  | .hbm, ⟨125, _⟩ => ⟨S50000x1, .i32⟩
  | .hbm, ⟨126, _⟩ => ⟨S256x256, .f32⟩
  | .hbm, ⟨127, _⟩ => ⟨S50000x768, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S256x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S256x256, .f32⟩
  | .local _ .vmem, ⟨21, _⟩ => ⟨S256x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S256x256, .f32⟩
  | .local _ .vmem, ⟨37, _⟩ => ⟨S256x256, .f32⟩
  | .local _ .vmem, ⟨38, _⟩ => ⟨S2000x256, .f32⟩
  | .local _ .vmem, ⟨39, _⟩ => ⟨S2000x256, .f32⟩
  | .local _ .vmem, ⟨40, _⟩ => ⟨S5000x256, .f32⟩
  | .local _ .vmem, ⟨41, _⟩ => ⟨S5000x256, .f32⟩
  | .local _ .vmem, ⟨42, _⟩ => ⟨S5000x1, .i32⟩
  | .local _ .vmem, ⟨43, _⟩ => ⟨S5000x1, .i32⟩
  | .local _ .vmem, ⟨44, _⟩ => ⟨S256x256, .f32⟩
  | .local _ .vmem, ⟨45, _⟩ => ⟨S256x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_cst_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_cst_1 : Ref sig .tc := ⟨.hbm, 47, rfl⟩
abbrev main_call0_v8 : Ref sig .tc := ⟨.hbm, 48, rfl⟩
abbrev main_call0_cst_2 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_cst_3 : Ref sig .tc := ⟨.hbm, 53, rfl⟩
abbrev main_call0_v12 : Ref sig .tc := ⟨.hbm, 54, rfl⟩
abbrev main_call0_cst_4 : Ref sig .tc := ⟨.hbm, 55, rfl⟩
abbrev main_call0_call0_v0 : Ref sig .tc := ⟨.hbm, 56, rfl⟩
abbrev main_call0_call0_v1 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_c_4 : Ref sig .tc := ⟨.hbm, 64, rfl⟩
abbrev main_v24 : Ref sig .tc := ⟨.hbm, 65, rfl⟩
abbrev main_v25 : Ref sig .tc := ⟨.hbm, 66, rfl⟩
abbrev main_c_5 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_cst_6 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_cst_7 : Ref sig .tc := ⟨.hbm, 78, rfl⟩
abbrev main_v35 : Ref sig .tc := ⟨.hbm, 79, rfl⟩
abbrev main_cst_8 : Ref sig .tc := ⟨.hbm, 80, rfl⟩
abbrev main_v36 : Ref sig .tc := ⟨.hbm, 81, rfl⟩
abbrev main_v37 : Ref sig .tc := ⟨.hbm, 82, rfl⟩
abbrev main_c_9 : Ref sig .tc := ⟨.hbm, 83, rfl⟩
abbrev main_call1_cst : Ref sig .tc := ⟨.hbm, 84, rfl⟩
abbrev main_call1_v0 : Ref sig .tc := ⟨.hbm, 85, rfl⟩
abbrev main_call1_v1 : Ref sig .tc := ⟨.hbm, 86, rfl⟩
abbrev main_call1_cst_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_v7 : Ref sig .tc := ⟨.hbm, 93, rfl⟩
abbrev main_call1_cst_1 : Ref sig .tc := ⟨.hbm, 94, rfl⟩
abbrev main_call1_v8 : Ref sig .tc := ⟨.hbm, 95, rfl⟩
abbrev main_call1_cst_2 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_cst_3 : Ref sig .tc := ⟨.hbm, 100, rfl⟩
abbrev main_call1_v12 : Ref sig .tc := ⟨.hbm, 101, rfl⟩
abbrev main_call1_cst_4 : Ref sig .tc := ⟨.hbm, 102, rfl⟩
abbrev main_call1_call0_v0 : Ref sig .tc := ⟨.hbm, 103, rfl⟩
abbrev main_call1_call0_v1 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_c_10 : Ref sig .tc := ⟨.hbm, 111, rfl⟩
abbrev main_v44 : Ref sig .tc := ⟨.hbm, 112, rfl⟩
abbrev main_v45 : Ref sig .tc := ⟨.hbm, 113, rfl⟩
abbrev main_c_11 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_cst_12 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def k5_cond2 (i : grid5.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_8 : BitVec 32 := 0#32
  let v22 : BitVec 1 := Scalar.cmpi .ne v21 c0_i32_8
  v22

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  reducesTo_S50000x256_S256_d0 : S50000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S50000x256_0_1 : S1x256.BroadcastsInDim S50000x256 (![0, 1] : Fin 2 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S_S50000x256 : S_.BroadcastsInDim S50000x256 (![] : Fin 0 → Fin S50000x256.rank)
  shapeCasts_S50000_S50000x1 : S50000.ShapeCasts S50000x1
  shapeCasts_S256x256_S256x256 : S256x256.ShapeCasts S256x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x256_d1_w32 : S5000x256.Iotas .tc 32 [1]
  broadcasts_S5000x1_S5000x256 : S5000x1.Broadcasts S5000x256
  natLt_1_32 : 1 < 32
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  concatenates_S50000x256_S50000x256_S50000x256_S50000x768_d1 : Shape.Concatenates [S50000x256, S50000x256, S50000x256] S50000x768 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S5000x256_S256x256_0_0_1_1_n_n_wf : DotDims.WF S5000x256 S5000x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .f32 = 32 ∨ (Rect.block (s := S50000x256) S2000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x256.size a ≤ S50000x256.size a
  hwx4_4 : ∀ i : grid4.Coords, EltTy.bits .f32 = 32 ∨ (Rect.block (s := S50000x256) S2000x256.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S50000x256.size a
  hwx5_0 : ∀ i : grid5.Coords, EltTy.bits .f32 = 32 ∨ (Rect.block (s := S50000x256) S5000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .i32 = 32 ∨ (Rect.block (s := S50000x1) S5000x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .f32 = 32 ∨ (Rect.block (s := S256x256) S256x256.size (cc5_transform_2 i) (hinb5_2 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S5000x256_S256x256_0_0_1_1_n_n : DotDims S5000x256 S5000x256 S256x256 where
  lhsContracting := [0]
  rhsContracting := [0]
  lhsNonContracting := [1]
  rhsNonContracting := [1]
  lhsBatch := []
  rhsBatch := []
  wf := dot_S5000x256_S5000x256_S256x256_0_0_1_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v23) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v34) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v42) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v43) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg12) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v54) S2000x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v54) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v56) S256x256.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S50000x1 : Shape := ⟨2, ![50000, 1]⟩
abbrev S50000x768 : Shape := ⟨2, ![50000, 768]⟩

abbrev nBuf : Space → Nat
  | .hbm => 173
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256x256, .f32⟩
  | 5 => ⟨S256, .f32⟩
  | 6 => ⟨S256, .f32⟩
  | 7 => ⟨S256x256, .f32⟩
  | 8 => ⟨S256x256, .f32⟩
  | 9 => ⟨S256, .f32⟩
  | 10 => ⟨S256, .f32⟩
  | 11 => ⟨S256x256, .f32⟩
  | 12 => ⟨S256x256, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S50000x128, .f32⟩
  | 31 => ⟨S50000x256, .f32⟩
  | 32 => ⟨S_, .f32⟩
  | 33 => ⟨S50000x256, .f32⟩
  | 34 => ⟨S50000x256, .f32⟩
  | 35 => ⟨S50000x256, .f32⟩
  | 36 => ⟨S_, .f32⟩
  | 37 => ⟨S50000x256, .f32⟩
  | 38 => ⟨S50000x256, .f32⟩
  | 39 => ⟨S_, .f32⟩
  | 40 => ⟨S256, .f32⟩
  | 41 => ⟨S_, .f32⟩
  | 42 => ⟨S256, .f32⟩
  | 43 => ⟨S256, .f32⟩
  | 44 => ⟨S_, .i32⟩
  | 45 => ⟨S_, .f32⟩
  | 46 => ⟨S256, .f32⟩
  | 47 => ⟨S1x256, .f32⟩
  | 48 => ⟨S_, .f32⟩
  | 49 => ⟨S1x256, .f32⟩
  | 50 => ⟨S1x256, .f32⟩
  | 51 => ⟨S50000x256, .f32⟩
  | 52 => ⟨S50000x256, .f32⟩
  | 53 => ⟨S50000x256, .f32⟩
  | 54 => ⟨S_, .f32⟩
  | 55 => ⟨S_, .f32⟩
  | 56 => ⟨S_, .f32⟩
  | 57 => ⟨S_, .f32⟩
  | 58 => ⟨S256, .f32⟩
  | 59 => ⟨S256, .f32⟩
  | 60 => ⟨S256, .f32⟩
  | 61 => ⟨S_, .f32⟩
  | 62 => ⟨S_, .i1⟩
  | 63 => ⟨S_, .f32⟩
  | 64 => ⟨S_, .f32⟩
  | 65 => ⟨S256, .f32⟩
  | 66 => ⟨S256, .f32⟩
  | 67 => ⟨S1x256, .f32⟩
  | 68 => ⟨S50000x256, .f32⟩
  | 69 => ⟨S50000x256, .f32⟩
  | 70 => ⟨S_, .f32⟩
  | 71 => ⟨S256, .f32⟩
  | 72 => ⟨S256, .f32⟩
  | 73 => ⟨S256, .f32⟩
  | 74 => ⟨S1x256, .f32⟩
  | 75 => ⟨S50000x256, .f32⟩
  | 76 => ⟨S50000x256, .f32⟩
  | 77 => ⟨S1x256, .f32⟩
  | 78 => ⟨S50000x256, .f32⟩
  | 79 => ⟨S50000x256, .f32⟩
  | 80 => ⟨S1x256, .f32⟩
  | 81 => ⟨S50000x256, .f32⟩
  | 82 => ⟨S50000x256, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x256, .f32⟩
  | 92 => ⟨S_, .f32⟩
  | 93 => ⟨S50000x256, .f32⟩
  | 94 => ⟨S800000x1, .i32⟩
  | 95 => ⟨S50000x256, .f32⟩
  | 96 => ⟨S50000x256, .f32⟩
  | 97 => ⟨S50000x256, .f32⟩
  | 98 => ⟨S_, .f32⟩
  | 99 => ⟨S50000x256, .f32⟩
  | 100 => ⟨S50000x256, .f32⟩
  | 101 => ⟨S50000x256, .f32⟩
  | 102 => ⟨S_, .f32⟩
  | 103 => ⟨S50000x256, .f32⟩
  | 104 => ⟨S50000x256, .f32⟩
  | 105 => ⟨S_, .f32⟩
  | 106 => ⟨S256, .f32⟩
  | 107 => ⟨S_, .f32⟩
  | 108 => ⟨S256, .f32⟩
  | 109 => ⟨S256, .f32⟩
  | 110 => ⟨S_, .i32⟩
  | 111 => ⟨S_, .f32⟩
  | 112 => ⟨S256, .f32⟩
  | 113 => ⟨S1x256, .f32⟩
  | 114 => ⟨S_, .f32⟩
  | 115 => ⟨S1x256, .f32⟩
  | 116 => ⟨S1x256, .f32⟩
  | 117 => ⟨S50000x256, .f32⟩
  | 118 => ⟨S50000x256, .f32⟩
  | 119 => ⟨S50000x256, .f32⟩
  | 120 => ⟨S_, .f32⟩
  | 121 => ⟨S_, .f32⟩
  | 122 => ⟨S_, .f32⟩
  | 123 => ⟨S_, .f32⟩
  | 124 => ⟨S256, .f32⟩
  | 125 => ⟨S256, .f32⟩
  | 126 => ⟨S256, .f32⟩
  | 127 => ⟨S_, .f32⟩
  | _ => ⟨S50000x128, .f32⟩

abbrev hbmTy0_1 (i : Nat) : BufTy := match i % 128 with
  | 0 => ⟨S_, .i1⟩
  | 1 => ⟨S_, .f32⟩
  | 2 => ⟨S_, .f32⟩
  | 3 => ⟨S256, .f32⟩
  | 4 => ⟨S256, .f32⟩
  | 5 => ⟨S1x256, .f32⟩
  | 6 => ⟨S50000x256, .f32⟩
  | 7 => ⟨S50000x256, .f32⟩
  | 8 => ⟨S_, .f32⟩
  | 9 => ⟨S256, .f32⟩
  | 10 => ⟨S256, .f32⟩
  | 11 => ⟨S256, .f32⟩
  | 12 => ⟨S1x256, .f32⟩
  | 13 => ⟨S50000x256, .f32⟩
  | 14 => ⟨S50000x256, .f32⟩
  | 15 => ⟨S1x256, .f32⟩
  | 16 => ⟨S50000x256, .f32⟩
  | 17 => ⟨S50000x256, .f32⟩
  | 18 => ⟨S1x256, .f32⟩
  | 19 => ⟨S50000x256, .f32⟩
  | 20 => ⟨S50000x256, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x256, .f32⟩
  | 30 => ⟨S_, .f32⟩
  | 31 => ⟨S50000x256, .f32⟩
  | 32 => ⟨S800000x1, .i32⟩
  | 33 => ⟨S50000x256, .f32⟩
  | 34 => ⟨S50000x256, .f32⟩
  | 35 => ⟨S50000x256, .f32⟩
  | 36 => ⟨S_, .f32⟩
  | 37 => ⟨S50000x256, .f32⟩
  | 38 => ⟨S50000x256, .f32⟩
  | 39 => ⟨S50000x256, .f32⟩
  | 40 => ⟨S_, .f32⟩
  | 41 => ⟨S256x256, .f32⟩
  | 42 => ⟨S50000x1, .i32⟩
  | 43 => ⟨S256x256, .f32⟩
  | 44 => ⟨S50000x768, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call0_cst : Ref sig .tc := ⟨.hbm, 32, rfl⟩
abbrev main_call0_v0 : Ref sig .tc := ⟨.hbm, 33, rfl⟩
abbrev main_v16 : Ref sig .tc := ⟨.hbm, 34, rfl⟩
abbrev main_v17 : Ref sig .tc := ⟨.hbm, 35, rfl⟩
abbrev main_call1_cst : Ref sig .tc := ⟨.hbm, 36, rfl⟩
abbrev main_call1_v0 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21 : Ref sig .tc := ⟨.hbm, 43, rfl⟩
abbrev main_c_3 : Ref sig .tc := ⟨.hbm, 44, rfl⟩
abbrev main_call2_cst : Ref sig .tc := ⟨.hbm, 45, rfl⟩
abbrev main_call2_v0 : Ref sig .tc := ⟨.hbm, 46, rfl⟩
abbrev main_call2_v1 : Ref sig .tc := ⟨.hbm, 47, rfl⟩
abbrev main_call2_cst_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_cst_1 : Ref sig .tc := ⟨.hbm, 55, rfl⟩
abbrev main_call2_v8 : Ref sig .tc := ⟨.hbm, 56, rfl⟩
abbrev main_call2_cst_2 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_cst_3 : Ref sig .tc := ⟨.hbm, 61, rfl⟩
abbrev main_call2_v12 : Ref sig .tc := ⟨.hbm, 62, rfl⟩
abbrev main_call2_cst_4 : Ref sig .tc := ⟨.hbm, 63, rfl⟩
abbrev main_call2_call0_v0 : Ref sig .tc := ⟨.hbm, 64, rfl⟩
abbrev main_call2_call0_v1 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_cst_4 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_c_5 : Ref sig .tc := ⟨.hbm, 83, rfl⟩
abbrev main_v38 : Ref sig .tc := ⟨.hbm, 84, rfl⟩
abbrev main_v39 : Ref sig .tc := ⟨.hbm, 85, rfl⟩
abbrev main_c_6 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_cst_7 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_call3_cst : Ref sig .tc := ⟨.hbm, 98, rfl⟩
abbrev main_call3_v0 : Ref sig .tc := ⟨.hbm, 99, rfl⟩
abbrev main_v50 : Ref sig .tc := ⟨.hbm, 100, rfl⟩
abbrev main_v51 : Ref sig .tc := ⟨.hbm, 101, rfl⟩
abbrev main_call4_cst : Ref sig .tc := ⟨.hbm, 102, rfl⟩
abbrev main_call4_v0 : Ref sig .tc := ⟨.hbm, 103, rfl⟩
abbrev main_v52 : Ref sig .tc := ⟨.hbm, 104, rfl⟩
abbrev main_cst_8 : Ref sig .tc := ⟨.hbm, 105, rfl⟩
abbrev main_v53 : Ref sig .tc := ⟨.hbm, 106, rfl⟩
abbrev main_cst_9 : Ref sig .tc := ⟨.hbm, 107, rfl⟩
abbrev main_v54 : Ref sig .tc := ⟨.hbm, 108, rfl⟩
abbrev main_v55 : Ref sig .tc := ⟨.hbm, 109, rfl⟩
abbrev main_c_10 : Ref sig .tc := ⟨.hbm, 110, rfl⟩
abbrev main_call5_cst : Ref sig .tc := ⟨.hbm, 111, rfl⟩
abbrev main_call5_v0 : Ref sig .tc := ⟨.hbm, 112, rfl⟩
abbrev main_call5_v1 : Ref sig .tc := ⟨.hbm, 113, rfl⟩
abbrev main_call5_cst_0 : Ref sig .tc := ⟨.hbm, 114, rfl⟩
abbrev main_call5_v2 : Ref sig .tc := ⟨.hbm, 115, rfl⟩
abbrev main_call5_v3 : Ref sig .tc := ⟨.hbm, 116, rfl⟩
abbrev main_call5_v4 : Ref sig .tc := ⟨.hbm, 117, rfl⟩
abbrev main_call5_v5 : Ref sig .tc := ⟨.hbm, 118, rfl⟩
abbrev main_call5_v6 : Ref sig .tc := ⟨.hbm, 119, rfl⟩
abbrev main_call5_v7 : Ref sig .tc := ⟨.hbm, 120, rfl⟩
abbrev main_call5_cst_1 : Ref sig .tc := ⟨.hbm, 121, rfl⟩
abbrev main_call5_v8 : Ref sig .tc := ⟨.hbm, 122, rfl⟩
abbrev main_call5_cst_2 : Ref sig .tc := ⟨.hbm, 123, rfl⟩
abbrev main_call5_v9 : Ref sig .tc := ⟨.hbm, 124, rfl⟩
abbrev main_call5_v10 : Ref sig .tc := ⟨.hbm, 125, rfl⟩
abbrev main_call5_v11 : Ref sig .tc := ⟨.hbm, 126, rfl⟩
abbrev main_call5_cst_3 : Ref sig .tc := ⟨.hbm, 127, rfl⟩
abbrev main_call5_v12 : Ref sig .tc := ⟨.hbm, 128, rfl⟩
abbrev main_call5_cst_4 : Ref sig .tc := ⟨.hbm, 129, rfl⟩
abbrev main_call5_call0_v0 : Ref sig .tc := ⟨.hbm, 130, rfl⟩
abbrev main_call5_call0_v1 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_cst_11 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_c_12 : Ref sig .tc := ⟨.hbm, 149, rfl⟩
abbrev main_v72 : Ref sig .tc := ⟨.hbm, 150, rfl⟩
abbrev main_v73 : Ref sig .tc := ⟨.hbm, 151, rfl⟩
abbrev main_c_13 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_cst_14 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_call6_cst : Ref sig .tc := ⟨.hbm, 164, rfl⟩
abbrev main_call6_v0 : Ref sig .tc := ⟨.hbm, 165, rfl⟩
abbrev main_v84 : Ref sig .tc := ⟨.hbm, 166, rfl⟩
abbrev main_v85 : Ref sig .tc := ⟨.hbm, 167, rfl⟩
abbrev main_cst_15 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000x256 : S_.BroadcastsInDim S50000x256 (![] : Fin 0 → Fin S50000x256.rank)
  reducesTo_S50000x256_S256_d0 : S50000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S50000x256_0_1 : S1x256.BroadcastsInDim S50000x256 (![0, 1] : Fin 2 → Fin S50000x256.rank)
  bcast_S_S256x256 : S_.BroadcastsInDim S256x256 (![] : Fin 0 → Fin S256x256.rank)
  bcast_S50000_S50000x1_0 : S50000.BroadcastsInDim S50000x1 (![0] : Fin 1 → Fin S50000x1.rank)
  concatenates_S50000x256_S50000x256_S50000x256_S50000x768_d1 : Shape.Concatenates [S50000x256, S50000x256, S50000x256] S50000x768 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S256x256_S50000x1_S50000x256_1_0_0_1_wf : ScatterDims.WF S256x256 S50000x1 S50000x256 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf

class Facts : Prop extends Facts₀ where

variable [Facts]
-- ==== Proof.KB.R0.lean ====
import proofs.«428498_j27358941675990_1_alg».proof.Proof.Gen.Kernel.Launch
import proofs.«428498_j27358941675990_1_alg».proof.Proof.Gen.Kernel.Skeleton
import proofs.«428498_j27358941675990_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S2000x128 := Rect.unit (s := S2000x128) ![0, 0] S2000x128.size inb_S2000x128_S2000x128_0_0
abbrev r0_b : Rect S128x256 := Rect.unit (s := S128x256) ![0, 0] S128x256.size inb_S128x256_S128x256_0_0
abbrev r0_c : Rect S256x256 := Rect.unit (s := S256x256) ![0, 0] S256x256.size inb_S256x256_S256x256_0_0
abbrev r0_out : Rect S2000x256 := Rect.unit (s := S2000x256) ![0, 0] S2000x256.size inb_S2000x256_S2000x256_0_0

def out0_4 (x0 x1 : Vec F S2000x128 .f32) (x2 : Vec F S128x256 .f32) (x3 : Vec F S256x256 .f32) : Vec F S2000x256 .f32 :=
  View.canon [⟨r0_out, k0_pay1 (View.ld x0 r0_a) (View.ld x1 r0_a) (View.ld x2 r0_b) (View.ld x3 r0_c)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) :
    (dat0 V c).after 4 t = out0_4 (iblk0 V c 0 t) (iblk0 V c 1 t) (iblk0 V c 2 t) (iblk0 V c 3 t) := by dsimp only [dat0]

theorem before0 (c : Dev nD) (t : Fin cfg0.N) :
    (∀ d, (dat0 V c).before 0 t d = iblk0 V c 0 t) ∧ (∀ d, (dat0 V c).before 1 t d = iblk0 V c 1 t)
    ∧ (∀ d, (dat0 V c).before 2 t d = iblk0 V c 2 t) ∧ (∀ d, (dat0 V c).before 3 t d = iblk0 V c 3 t) := by
  refine ⟨?_, ?_, ?_, ?_⟩ <;> exact fun d =>
    ((dat0 V c).before_in_eq_fetched _ rfl (fun _ => rfl) (fun _ _ _ => rfl) (fun _ => rfl) t d).trans rfl

theorem body_obligation0 (c : Dev nD) : BodyObligation (dat0 (F := F) V c) (defs₀ (F := F)) Variants.none () Set.univ := fun t => by
  obtain ⟨h0, h1, h2, h3⟩ := before0 V c t
  rw [bigSep_W0, bigSep_W0, show (dat0 V c).owesAt () t.succ = (dat0 V c).owesAt () t.castSucc from rfl]
  simp only [h0, h1, h2, h3]
  dsimp only [dat0]
  show _ ⊢ wp _ _ _ (bodyAt0 t) _
  simp only [bodyAt0, cc0__gin_mlp_kernel_eq_skeleton]; unfold cc0__gin_mlp_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩⟩
  sl_exec
  sl_step
  iframe HΦ Ho
  isplitl [H0]; · iexists f0; iframe H0; ipureintro; exact hf0
  isplitl [H1]; · iexists f1; iframe H1; ipureintro; exact hf1
  isplitl [H2]; · iexists f2; iframe H2; ipureintro; exact hf2
  isplitl [H3]; · iexists f3; iframe H3; ipureintro; exact hf3
  iexists _; iframe H4; ipureintro
  rw [← hf0, ← hf1, ← hf2, ← hf3]
  exact View.read_writes_eq_canon _ _ _ (View.cover_of_tiled _ S2000x256.size (by rfl))

end Region0

end Cert.Kernel.Hand

end
-- ==== Proof.KB.R1.lean ====
import proofs.«428498_j27358941675990_1_alg».proof.Proof.Gen.Kernel.Launch
import proofs.«428498_j27358941675990_1_alg».proof.Proof.Gen.Kernel.Skeleton
import proofs.«428498_j27358941675990_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S2000x256 := Rect.unit (s := S2000x256) ![0, 0] S2000x256.size inb_S2000x256_S2000x256_0_0
abbrev r1_b : Rect S1x256 := Rect.unit (s := S1x256) ![0, 0] S1x256.size inb_S1x256_S1x256_0_0
abbrev r1_out : Rect S2000x256 := Rect.unit (s := S2000x256) ![0, 0] S2000x256.size inb_S2000x256_S2000x256_0_0

def out1_5 (x0 : Vec F S2000x256 .f32) (x1 x2 x3 x4 : Vec F S1x256 .f32) : Vec F S2000x256 .f32 :=
  View.canon [⟨r1_out, k1_pay1 (View.ld x0 r1_a) (View.ld x1 r1_b) (View.ld x2 r1_b) (View.ld x3 r1_b) (View.ld x4 r1_b)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1 (c : Dev nD) (t : Fin cfg1.N) :
    (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t)
    ∧ (∀ d, (dat1 V c).before 4 t d = iblk1 V c 4 t) := by
  refine ⟨?_, ?_, ?_, ?_, ?_⟩ <;> exact fun d =>
    ((dat1 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  obtain ⟨h0, h1, h2, h3, h4⟩ := before1 V c t
  rw [bigSep_W1, bigSep_W1, show (dat1 V c).owesAt () t.succ = (dat1 V c).owesAt () t.castSucc from rfl]
  simp only [h0, h1, h2, h3, h4]
  dsimp only [dat1]
  show _ ⊢ wp _ _ _ (bodyAt1 t) _
  simp only [bodyAt1, cc1__bn_kernel_eq_skeleton]; unfold cc1__bn_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  sl_exec
  sl_step
  iframe HΦ Ho
  isplitl [H0]; · iexists f0; iframe H0; ipureintro; exact hf0
  isplitl [H1]; · iexists f1; iframe H1; ipureintro; exact hf1
  isplitl [H2]; · iexists f2; iframe H2; ipureintro; exact hf2
  isplitl [H3]; · iexists f3; iframe H3; ipureintro; exact hf3
  isplitl [H4]; · iexists f4; iframe H4; ipureintro; exact hf4
  iexists _; iframe H5; ipureintro
  rw [← hf0, ← hf1, ← hf2, ← hf3, ← hf4]
  exact View.read_writes_eq_canon _ _ _ (View.cover_of_tiled _ S2000x256.size (by rfl))

end Region1

end Cert.Kernel.Hand

end
-- ==== Proof.KB.R2.lean ====
import proofs.«428498_j27358941675990_1_alg».proof.Proof.Gen.Kernel.Launch
import proofs.«428498_j27358941675990_1_alg».proof.Proof.Gen.Kernel.Skeleton
import proofs.«428498_j27358941675990_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S2000x256 := Rect.unit (s := S2000x256) ![0, 0] S2000x256.size inb_S2000x256_S2000x256_0_0
abbrev r2_b : Rect S256x256 := Rect.unit (s := S256x256) ![0, 0] S256x256.size inb_S256x256_S256x256_0_0
abbrev r2_c : Rect S256x256 := Rect.unit (s := S256x256) ![0, 0] S256x256.size inb_S256x256_S256x256_0_0
abbrev r2_out : Rect S2000x256 := Rect.unit (s := S2000x256) ![0, 0] S2000x256.size inb_S2000x256_S2000x256_0_0

def out2_4 (x0 x1 : Vec F S2000x256 .f32) (x2 : Vec F S256x256 .f32) (x3 : Vec F S256x256 .f32) : Vec F S2000x256 .f32 :=
  View.canon [⟨r2_out, k2_pay1 (View.ld x0 r2_a) (View.ld x1 r2_a) (View.ld x2 r2_b) (View.ld x3 r2_c)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) :
    (dat2 V c).after 4 t = out2_4 (iblk2 V c 0 t) (iblk2 V c 1 t) (iblk2 V c 2 t) (iblk2 V c 3 t) := by dsimp only [dat2]

theorem before2 (c : Dev nD) (t : Fin cfg2.N) :
    (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t) := by
  refine ⟨?_, ?_, ?_, ?_⟩ <;> exact fun d =>
    ((dat2 V c).before_in_eq_fetched _ rfl (fun _ => rfl) (fun _ _ _ => rfl) (fun _ => rfl) t d).trans rfl

theorem body_obligation2 (c : Dev nD) : BodyObligation (dat2 (F := F) V c) (defs₀ (F := F)) Variants.none () Set.univ := fun t => by
  obtain ⟨h0, h1, h2, h3⟩ := before2 V c t
  rw [bigSep_W2, bigSep_W2, show (dat2 V c).owesAt () t.succ = (dat2 V c).owesAt () t.castSucc from rfl]
  simp only [h0, h1, h2, h3]
  dsimp only [dat2]
  show _ ⊢ wp _ _ _ (bodyAt2 t) _
  simp only [bodyAt2, cc2__gin_mlp_kernel_eq_skeleton]; unfold cc2__gin_mlp_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩⟩
  sl_exec
  sl_step
  iframe HΦ Ho
  isplitl [H0]; · iexists f0; iframe H0; ipureintro; exact hf0
  isplitl [H1]; · iexists f1; iframe H1; ipureintro; exact hf1
  isplitl [H2]; · iexists f2; iframe H2; ipureintro; exact hf2
  isplitl [H3]; · iexists f3; iframe H3; ipureintro; exact hf3
  iexists _; iframe H4; ipureintro
  rw [← hf0, ← hf1, ← hf2, ← hf3]
  exact View.read_writes_eq_canon _ _ _ (View.cover_of_tiled _ S2000x256.size (by rfl))

end Region2

end Cert.Kernel.Hand

end
-- ==== Proof.KB.R3.lean ====
import proofs.«428498_j27358941675990_1_alg».proof.Proof.Gen.Kernel.Launch
import proofs.«428498_j27358941675990_1_alg».proof.Proof.Gen.Kernel.Skeleton
import proofs.«428498_j27358941675990_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_a : Rect S2000x256 := Rect.unit (s := S2000x256) ![0, 0] S2000x256.size inb_S2000x256_S2000x256_0_0
abbrev r3_b : Rect S1x256 := Rect.unit (s := S1x256) ![0, 0] S1x256.size inb_S1x256_S1x256_0_0
abbrev r3_out : Rect S2000x256 := Rect.unit (s := S2000x256) ![0, 0] S2000x256.size inb_S2000x256_S2000x256_0_0

def out3_5 (x0 : Vec F S2000x256 .f32) (x1 x2 x3 x4 : Vec F S1x256 .f32) : Vec F S2000x256 .f32 :=
  View.canon [⟨r3_out, k3_pay1 (View.ld x0 r3_a) (View.ld x1 r3_b) (View.ld x2 r3_b) (View.ld x3 r3_b) (View.ld x4 r3_b)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3 (c : Dev nD) (t : Fin cfg3.N) :
    (∀ d, (dat3 V c).before 0 t d = iblk3 V c 0 t) ∧ (∀ d, (dat3 V c).before 1 t d = iblk3 V c 1 t)
    ∧ (∀ d, (dat3 V c).before 2 t d = iblk3 V c 2 t) ∧ (∀ d, (dat3 V c).before 3 t d = iblk3 V c 3 t)
    ∧ (∀ d, (dat3 V c).before 4 t d = iblk3 V c 4 t) := by
  refine ⟨?_, ?_, ?_, ?_, ?_⟩ <;> exact fun d =>
    ((dat3 V c).before_in_eq_fetched _ rfl (fun _ => rfl) (fun _ _ _ => rfl) (fun _ => rfl) t d).trans rfl

theorem body_obligation3 (c : Dev nD) : BodyObligation (dat3 (F := F) V c) (defs₀ (F := F)) Variants.none () Set.univ := fun t => by
  obtain ⟨h0, h1, h2, h3, h4⟩ := before3 V c t
  rw [bigSep_W3, bigSep_W3, show (dat3 V c).owesAt () t.succ = (dat3 V c).owesAt () t.castSucc from rfl]
  simp only [h0, h1, h2, h3, h4]
  dsimp only [dat3]
  show _ ⊢ wp _ _ _ (bodyAt3 t) _
  simp only [bodyAt3, cc3__bn_kernel_eq_skeleton]; unfold cc3__bn_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  sl_exec
  sl_step
  iframe HΦ Ho
  isplitl [H0]; · iexists f0; iframe H0; ipureintro; exact hf0
  isplitl [H1]; · iexists f1; iframe H1; ipureintro; exact hf1
  isplitl [H2]; · iexists f2; iframe H2; ipureintro; exact hf2
  isplitl [H3]; · iexists f3; iframe H3; ipureintro; exact hf3
  isplitl [H4]; · iexists f4; iframe H4; ipureintro; exact hf4
  iexists _; iframe H5; ipureintro
  rw [← hf0, ← hf1, ← hf2, ← hf3, ← hf4]
  exact View.read_writes_eq_canon _ _ _ (View.cover_of_tiled _ S2000x256.size (by rfl))

end Region3

end Cert.Kernel.Hand

end
-- ==== Proof.KB.R4.lean ====
import proofs.«428498_j27358941675990_1_alg».proof.Proof.Gen.Kernel.Launch
import proofs.«428498_j27358941675990_1_alg».proof.Proof.Gen.Kernel.Skeleton
import proofs.«428498_j27358941675990_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_a : Rect S2000x256 := Rect.unit (s := S2000x256) ![0, 0] S2000x256.size inb_S2000x256_S2000x256_0_0
abbrev r4_b : Rect S256x256 := Rect.unit (s := S256x256) ![0, 0] S256x256.size inb_S256x256_S256x256_0_0
abbrev r4_c : Rect S256x256 := Rect.unit (s := S256x256) ![0, 0] S256x256.size inb_S256x256_S256x256_0_0
abbrev r4_out : Rect S2000x256 := Rect.unit (s := S2000x256) ![0, 0] S2000x256.size inb_S2000x256_S2000x256_0_0

def out4_4 (x0 x1 : Vec F S2000x256 .f32) (x2 : Vec F S256x256 .f32) (x3 : Vec F S256x256 .f32) : Vec F S2000x256 .f32 :=
  View.canon [⟨r4_out, k4_pay1 (View.ld x0 r4_a) (View.ld x1 r4_a) (View.ld x2 r4_b) (View.ld x3 r4_c)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_4 (c : Dev nD) (t : Fin cfg4.N) :
    (dat4 V c).after 4 t = out4_4 (iblk4 V c 0 t) (iblk4 V c 1 t) (iblk4 V c 2 t) (iblk4 V c 3 t) := by dsimp only [dat4]

theorem before4 (c : Dev nD) (t : Fin cfg4.N) :
    (∀ d, (dat4 V c).before 0 t d = iblk4 V c 0 t) ∧ (∀ d, (dat4 V c).before 1 t d = iblk4 V c 1 t)
    ∧ (∀ d, (dat4 V c).before 2 t d = iblk4 V c 2 t) ∧ (∀ d, (dat4 V c).before 3 t d = iblk4 V c 3 t) := by
  refine ⟨?_, ?_, ?_, ?_⟩ <;> exact fun d =>
    ((dat4 V c).before_in_eq_fetched _ rfl (fun _ => rfl) (fun _ _ _ => rfl) (fun _ => rfl) t d).trans rfl

theorem body_obligation4 (c : Dev nD) : BodyObligation (dat4 (F := F) V c) (defs₀ (F := F)) Variants.none () Set.univ := fun t => by
  obtain ⟨h0, h1, h2, h3⟩ := before4 V c t
  rw [bigSep_W4, bigSep_W4, show (dat4 V c).owesAt () t.succ = (dat4 V c).owesAt () t.castSucc from rfl]
  simp only [h0, h1, h2, h3]
  dsimp only [dat4]
  show _ ⊢ wp _ _ _ (bodyAt4 t) _
  simp only [bodyAt4, cc4__gin_mlp_kernel_eq_skeleton]; unfold cc4__gin_mlp_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩⟩
  sl_exec
  sl_step
  iframe HΦ Ho
  isplitl [H0]; · iexists f0; iframe H0; ipureintro; exact hf0
  isplitl [H1]; · iexists f1; iframe H1; ipureintro; exact hf1
  isplitl [H2]; · iexists f2; iframe H2; ipureintro; exact hf2
  isplitl [H3]; · iexists f3; iframe H3; ipureintro; exact hf3
  iexists _; iframe H4; ipureintro
  rw [← hf0, ← hf1, ← hf2, ← hf3]
  exact View.read_writes_eq_canon _ _ _ (View.cover_of_tiled _ S2000x256.size (by rfl))

end Region4

end Cert.Kernel.Hand

end
-- ==== Proof.KB.R5.lean ====
import proofs.«428498_j27358941675990_1_alg».proof.Proof.Gen.Kernel.Launch
import proofs.«428498_j27358941675990_1_alg».proof.Proof.Gen.Kernel.Skeleton
import proofs.«428498_j27358941675990_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond5_0 (i : grid5.Coords) : Prop :=
  (Scalar.cmpi .ne (Scalar.extui (Scalar.cmpi .eq (BitVec.ofNat 32 (i 0).val) 0#32)) 0#32) = 1#1
theorem hcond5_0 : ∀ t : Fin cfg5.N, cond5_0 (grid5.coords t) ↔ t.val = 0 :=
  (by decide +kernel : ∀ t : Fin grid5.N, cond5_0 (grid5.coords t) ↔ t.val = 0)

abbrev cond5_1 (i : grid5.Coords) : Prop := k5_cond2 i = 1#1
theorem idleAt5_2 : ∀ t : Fin cfg5.N, ¬cond5_1 (grid5.coords t) → idle5 2 (grid5.coords t) = true ∧ (win5 2).flush t = false := by decide +kernel
theorem liveAt5_2 : ∀ t : Fin cfg5.N, cond5_1 (grid5.coords t) → idle5 2 (grid5.coords t) = false := by decide +kernel
theorem hcond5 : ∀ t : Fin cfg5.N, ¬(cond5_0 (grid5.coords t) ∧ cond5_1 (grid5.coords t)) := by decide +kernel

abbrev r5_0 : Rect S5000x256 := Rect.unit (s := S5000x256) ![0, 0] S5000x256.size inb_S5000x256_S5000x256_0_0
abbrev r5_1 : Rect S5000x1 := Rect.unit (s := S5000x1) ![0, 0] S5000x1.size inb_S5000x1_S5000x1_0_0
abbrev r5_2 : Rect S256x256 := Rect.unit (s := S256x256) ![0, 0] S256x256.size inb_S256x256_S256x256_0_0

abbrev scM5 : Memref sig .tc .vmem S256x256 .f32 := Memref.whole cc5_scratch0

theorem hz2 : (![0, 0] : Fin 2 → ℕ) = fun _ => 0 := by
  funext a; fin_cases a <;> rfl

theorem cover5 (w : Vec F S256x256 .f32) (L : List (View.Piece (Elt F) S256x256 .f32)) (y : S256x256.Idx) :
    ∃ pc ∈ ((⟨r5_2, w⟩ : View.Piece (Elt F) S256x256 .f32) :: L), y ∈ pc.1.set :=
  ⟨_, List.mem_cons_self .., View.mem_set_unit_zero (S := S256x256) hz2 inb_S256x256_S256x256_0_0 y⟩

-- One triple for every point: the two branch conditions say whether the accumulator starts from the zero fill and whether the output receives it.
theorem sound_kernel5 {c : Dev nD} {E : Set ℕ} {i : grid5.Coords}
    {arg1 : Memref sig .tc .vmem S5000x256 .f32} {harg1 : arg1.IsWhole} {arg2 : Memref sig .tc .vmem S5000x1 .i32} {harg2 : arg2.IsWhole}
    {arg3 : Memref sig .tc .vmem S256x256 .f32} {harg3 : arg3.IsWhole} {arg4 : Memref sig .tc .vmem S256x256 .f32} {harg4 : arg4.IsWhole}
    (hc : ¬(cond5_0 i ∧ cond5_1 i))
    {x0 : Vec F S5000x256 .f32} {x1 : Vec F S5000x1 .i32} {xi2 xs : Vec F S256x256 .f32} {K : PUnit → sProp 𝕄} :
    iprop(owns c arg1 fullShare x0 ∗ owns c arg2 fullShare x1 ∗ owns c arg3 fullShare xi2 ∗ owns c arg4 fullShare xs
        ∗ (iprop(owns c arg1 fullShare x0 ∗ owns c arg2 fullShare x1
            ∗ owns c arg3 fullShare (if cond5_1 i then k5_pay2 (View.ld x1 r5_1) (View.ld x0 r5_0) xs else xi2)
            ∗ owns c arg4 fullShare (k5_pay2 (View.ld x1 r5_1) (View.ld x0 r5_0) (if cond5_0 i then k5_pay1 else xs))) -∗ K ⟨⟩))
      ⊢ wp frame (wpE (defs₀ (F := F)) Variants.none c none) E (cc5__pool_kernel i arg1 harg1 arg2 harg2 arg3 harg3 arg4 harg4) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  by_cases hc0 : cond5_0 i <;> by_cases hc1 : cond5_1 i
  · exact absurd ⟨hc0, hc1⟩ hc
  all_goals
    first | simp only [if_neg hc0] | simp only [if_pos hc0]
    first | simp only [if_neg hc1] | simp only [if_pos hc1]
    sl_exec (disch := first | exact hc0 | exact hc1)
    sl_step
    iapply Hk
    isplitl [H0]; · iexists f0; iframe H0; ipureintro; rfl
    isplitl [H1]; · iexists f1; iframe H1; ipureintro; rfl
    isplitl [H2] <;>
    · iexists _; (first | iframe H2 | iframe H3); ipureintro; (try sl_unfold_words)
      first
      | rw [View.read_writes_eq_canon _ _ _ (cover5 _ _)]
        simp only [View.canon_cons_unit_zero (S := S256x256) hz2, View.readAt_eq_ld,
          View.readCov_unit_zero (S := S256x256) _ hz2, View.ld_unit_zero (S := S256x256) hz2]
      | rfl

-- The region invariant with the accumulator's contents named `X`.
def PhiN5 (c : Dev nD) (X : Vec F S256x256 .f32) : sProp 𝕄 :=
  iprop(iprop(owns c scM5 fullShare X
    ∗ Pipeline.scopedRestBut (Ix := Unit) (Name := ℕ) (U := UR sig nD τ) (Lvl := ℕ) (Val := Elt F) spec5 c [cc5_scratch0])
    ∗ (∃ r, prngReg c r))

section Region5
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def accAt5 (c : Dev nD) : (n : ℕ) → n < cfg5.N → Vec F S256x256 .f32
  | 0, hn => k5_pay2 (View.ld (iblk5 V c 1 ⟨0, hn⟩) r5_1) (View.ld (iblk5 V c 0 ⟨0, hn⟩) r5_0) (k5_pay1 (F := F))
  | n + 1, hn => k5_pay2 (View.ld (iblk5 V c 1 ⟨n + 1, hn⟩) r5_1) (View.ld (iblk5 V c 0 ⟨n + 1, hn⟩) r5_0)
      (accAt5 c n (Nat.lt_of_succ_lt hn))

theorem accAt5_zero (c : Dev nD) (hn : 0 < cfg5.N) :
    accAt5 V c 0 hn = k5_pay2 (View.ld (iblk5 V c 1 ⟨0, hn⟩) r5_1) (View.ld (iblk5 V c 0 ⟨0, hn⟩) r5_0) (k5_pay1 (F := F)) := rfl

theorem accAt5_succ (c : Dev nD) (n : ℕ) (hn : n + 1 < cfg5.N) :
    accAt5 V c (n + 1) hn = k5_pay2 (View.ld (iblk5 V c 1 ⟨n + 1, hn⟩) r5_1) (View.ld (iblk5 V c 0 ⟨n + 1, hn⟩) r5_0)
      (accAt5 V c n (Nat.lt_of_succ_lt hn)) := rfl

-- The invariant before position `n`: from the second point on the accumulator holds what the point before left.
def PhiS5 (c : Dev nD) : (n : ℕ) → n ≤ cfg5.N → sProp 𝕄
  | 0, _ => Pipeline.ΦA spec5 c
  | n + 1, hn => PhiN5 c (accAt5 V c n hn)

theorem PhiS5_pos (c : Dev nD) (n : ℕ) (h : n ≤ cfg5.N) (hz : n ≠ 0) :
    PhiS5 V c n h = PhiN5 c (accAt5 V c (n - 1) (by omega)) := by
  cases n with
  | zero => exact absurd rfl hz
  | succ n => rfl

theorem PhiA5_eq (c : Dev nD) :
    (Pipeline.ΦA spec5 c : sProp 𝕄)
      = iprop(iprop((∃ d, owns c scM5 fullShare d)
          ∗ Pipeline.scopedRestBut (Ix := Unit) (Name := ℕ) (U := UR sig nD τ) (Lvl := ℕ) (Val := Elt F) spec5 c [cc5_scratch0])
          ∗ (∃ r, prngReg c r)) := by
  unfold Pipeline.ΦA; rw [scopedRest5_split]; simp only [scM5, owns_whole]; try rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => accAt5 V c t.val t.isLt
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_2 (c : Dev nD) (t : Fin cfg5.N) : (dat5 V c).after 2 t = accAt5 V c t.val t.isLt := by dsimp only [dat5]

theorem before5 (c : Dev nD) (t : Fin cfg5.N) :
    (∀ d, (dat5 V c).before 0 t d = iblk5 V c 0 t) ∧ (∀ d, (dat5 V c).before 1 t d = iblk5 V c 1 t) := by
  refine ⟨?_, ?_⟩ <;> exact fun d =>
    ((dat5 V c).before_in_eq_fetched _ rfl (fun _ => rfl) (fun _ _ _ => rfl) (fun _ => rfl) t d).trans rfl

theorem accAt5_first (c : Dev nD) (t : Fin cfg5.N) (hz : t.val = 0) :
    accAt5 V c t.val t.isLt = k5_pay2 (View.ld (iblk5 V c 1 t) r5_1) (View.ld (iblk5 V c 0 t) r5_0) (k5_pay1 (F := F)) := by
  obtain ⟨n, hn⟩ := t
  cases n with
  | zero => rfl
  | succ n => exact absurd hz (Nat.succ_ne_zero n)

theorem accAt5_later (c : Dev nD) (t : Fin cfg5.N) (hz : t.val ≠ 0) :
    accAt5 V c t.val t.isLt = k5_pay2 (View.ld (iblk5 V c 1 t) r5_1) (View.ld (iblk5 V c 0 t) r5_0)
      (accAt5 V c (t.val - 1) (Nat.lt_of_le_of_lt (Nat.sub_le _ _) t.isLt)) := by
  obtain ⟨n, hn⟩ := t
  cases n with
  | zero => exact absurd rfl hz
  | succ n => rfl

theorem body_obligation5 (c : Dev nD) : BodyObligation (dat5 (F := F) V c) (defs₀ (F := F)) Variants.none () Set.univ := fun t => by
  obtain ⟨hb0, hb1⟩ := before5 V c t
  rw [bigSep_W5, bigSep_W5, show (dat5 V c).owesAt () t.succ = (dat5 V c).owesAt () t.castSucc from rfl,
    show (dat5 V c).Φ t.succ = PhiN5 c (accAt5 V c t.val t.isLt) from rfl,
    show (dat5 V c).Φ t.castSucc = PhiS5 V c t.val (Nat.le_of_lt t.isLt) from rfl]
  simp only [hb0, hb1]
  dsimp only [dat5]
  show _ ⊢ wp _ _ _ (bodyAt5 t) _
  by_cases h1 : cond5_1 (grid5.coords t)
  · have h0 : ¬cond5_0 (grid5.coords t) := fun h => hcond5 t ⟨h, h1⟩
    have hz : t.val ≠ 0 := mt (hcond5_0 t).mpr h0
    rw [liveAt5_2 t h1, PhiS5_pos V c _ _ hz, accAt5_later V c t hz]
    dsimp only [PhiN5]
    iintro ⟨⟨⟨HS, HR⟩, Hg⟩, Ho, ⟨%d0, H0⟩, ⟨%d1, H1⟩, ⟨%d2, H2⟩⟩
    iapply (sound_kernel5 (hcond5 t))
    iframe H0 H1 H2 HS
    iintro ⟨H0, H1, H2, HS⟩
    simp only [if_pos h1, if_neg h0]
    iframe
  · rw [(idleAt5_2 t h1).1, (idleAt5_2 t h1).2]
    by_cases h0 : cond5_0 (grid5.coords t)
    · have hz : t.val = 0 := (hcond5_0 t).mp h0
      rw [show PhiS5 V c t.val (Nat.le_of_lt t.isLt) = Pipeline.ΦA spec5 c from by simp only [hz]; rfl,
        PhiA5_eq, accAt5_first V c t hz]
      dsimp only [PhiN5]
      iintro ⟨⟨⟨⟨%ds, HS⟩, HR⟩, Hg⟩, Ho, ⟨%d0, H0⟩, ⟨%d1, H1⟩, ⟨%d2, H2⟩⟩
      iapply (sound_kernel5 (hcond5 t))
      iframe H0 H1 H2 HS
      iintro ⟨H0, H1, H2, HS⟩
      simp only [if_pos h0, if_neg h1]
      iframe HS HR Hg Ho H0 H1
      iexists _; iexact H2
    · have hz : t.val ≠ 0 := mt (hcond5_0 t).mpr h0
      rw [PhiS5_pos V c _ _ hz, accAt5_later V c t hz]
      dsimp only [PhiN5]
      iintro ⟨⟨⟨HS, HR⟩, Hg⟩, Ho, ⟨%d0, H0⟩, ⟨%d1, H1⟩, ⟨%d2, H2⟩⟩
      iapply (sound_kernel5 (hcond5 t))
      iframe H0 H1 H2 HS
      iintro ⟨H0, H1, H2, HS⟩
      simp only [if_neg h0, if_neg h1]
      iframe HS HR Hg Ho H0 H1
      iexists _; iexact H2

theorem hin5 (c : Dev nD) : Pipeline.ΦA spec5 c ⊢ (dat5 V c).Φ 0 :=
  Idealize.SL.BI.Entails.refl _

-- After the last point the accumulator's named contents are forgotten.
theorem hout5 (c : Dev nD) : (dat5 V c).Φ (Fin.last cfg5.N) ⊢ Pipeline.ΦA spec5 c := by
  rw [show (dat5 V c).Φ (Fin.last cfg5.N) = PhiS5 V c _ (Nat.le_of_lt_succ (Fin.last cfg5.N).isLt) from rfl,
    PhiS5_pos V c _ _ (by rw [Fin.val_last, show cfg5.N = 10 from N_5]; decide), PhiA5_eq]
  unfold PhiN5
  iintro ⟨⟨HS, HR⟩, Hg⟩
  iframe HR Hg
  iexists _; iexact HS

end Region5

end Cert.Kernel.Hand

end
-- ==== Proof.KB.Run.lean ====
import proofs.«428498_j27358941675990_1_alg».proof.Proof.Gen.Kernel.Launch
import proofs.«428498_j27358941675990_1_alg».proof.Proof.Gen.Kernel.Skeleton
import proofs.«428498_j27358941675990_1_alg».proof.Proof.Gen.Kernel.Points
import proofs.«428498_j27358941675990_1_alg».proof.Proof.Gen.Kernel.Regions
import proofs.«428498_j27358941675990_1_alg».proof.Proof.KB.R0
import proofs.«428498_j27358941675990_1_alg».proof.Proof.KB.R1
import proofs.«428498_j27358941675990_1_alg».proof.Proof.KB.R2
import proofs.«428498_j27358941675990_1_alg».proof.Proof.KB.R3
import proofs.«428498_j27358941675990_1_alg».proof.Proof.KB.R4
import proofs.«428498_j27358941675990_1_alg».proof.Proof.KB.R5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
/-- The buffers' contents at each boundary between two items of @main, from the launch memory on: a host stretch applies its operations, a kernel region replaces its arrays by what its grid leaves. -/
abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
abbrev W9 : Dev nD → Valuation τ sig (Elt F) := fun c => StableHlo.after hostOps3 (W8 m ρ c)
abbrev W10 : Dev nD → Valuation τ sig (Elt F) := fun c => StableHlo.after hostOps3_1 (W9 m ρ c)
abbrev W11 : Dev nD → Valuation τ sig (Elt F) := fun c => StableHlo.after hostOps3_2 (W10 m ρ c)
abbrev V11 : (c : Dev nD) → (b : Ref sig .tc) → Buf (Elt F) ((c : Thread nD τ).loc b) := fun c b => W11 m ρ c b
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
abbrev V12 : (c : Dev nD) → (b : Ref sig .tc) → Buf (Elt F) ((c : Thread nD τ).loc b) := fun c b => W12 m ρ c b
abbrev W13 : Dev nD → Valuation τ sig (Elt F) := fun c => StableHlo.after hostOps4 (W12 m ρ c)
abbrev V13 : (c : Dev nD) → (b : Ref sig .tc) → Buf (Elt F) ((c : Thread nD τ).loc b) := fun c b => W13 m ρ c b
def W14 (c : Dev nD) : Valuation τ sig (Elt F) :=
  Pipeline.withArrays spec4 c (W13 m ρ c) fun w => (dat4 (V13 m ρ) c).arrAt w cfg4.N
theorem W14_arr (c : Dev nD) (w : Fin cfg4.W) :
    W14 m ρ c (Proc.devRef .tc (Pipeline.arrRef spec4 w)) = (dat4 (V13 m ρ) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m ρ c (Proc.devRef .tc b) = W13 m ρ c (Proc.devRef .tc b) := by
  unfold W14; exact Pipeline.withArrays_of_ne spec4 c _ _ b hb
abbrev V14 : (c : Dev nD) → (b : Ref sig .tc) → Buf (Elt F) ((c : Thread nD τ).loc b) := fun c b => W14 m ρ c b
abbrev W15 : Dev nD → Valuation τ sig (Elt F) := fun c => StableHlo.after hostOps5 (W14 m ρ c)
abbrev V15 : (c : Dev nD) → (b : Ref sig .tc) → Buf (Elt F) ((c : Thread nD τ).loc b) := fun c b => W15 m ρ c b
def W16 (c : Dev nD) : Valuation τ sig (Elt F) :=
  Pipeline.withArrays spec5 c (W15 m ρ c) fun w => (dat5 (V15 m ρ) c).arrAt w cfg5.N
theorem W16_arr (c : Dev nD) (w : Fin cfg5.W) :
    W16 m ρ c (Proc.devRef .tc (Pipeline.arrRef spec5 w)) = (dat5 (V15 m ρ) c).arrAt w cfg5.N := by
  unfold W16; exact Pipeline.withArrays_arr spec5 launch5.win.arr_inj c _ _ w
theorem W16_of_ne (c : Dev nD) (b : Ref sig .tc) (hb : ∀ w, Pipeline.arrRef spec5 w ≠ b) :
    W16 m ρ c (Proc.devRef .tc b) = W15 m ρ c (Proc.devRef .tc b) := by
  unfold W16; exact Pipeline.withArrays_of_ne spec5 c _ _ b hb
abbrev V16 : (c : Dev nD) → (b : Ref sig .tc) → Buf (Elt F) ((c : Thread nD τ).loc b) := fun c b => W16 m ρ c b
abbrev W17 : Dev nD → Valuation τ sig (Elt F) := fun c => StableHlo.after hostOps6 (W16 m ρ c)
theorem not_image {W : ℕ} {f : Fin W → Ref sig .tc} {b : Ref sig .tc} (hb : b ∉ Finset.univ.image f) (w : Fin W) : f w ≠ b :=
  fun e => hb (Finset.mem_image.mpr ⟨w, Finset.mem_univ _, e⟩)
/-- A region changes only its output array: its input arrays and every other buffer end as they began. -/
theorem W2_keep (c : Dev nD) (b : Ref sig .tc) (hb : b ≠ main_v14) :
    W2 m ρ c (Proc.devRef .tc b) = W1 m ρ c (Proc.devRef .tc b) := by
  by_cases h : ∃ w, Pipeline.arrRef spec0 w = b
  · obtain ⟨w, rfl⟩ := h
    refine (W2_arr m ρ c w).trans ?_
    match w, hb with
    | ⟨4, _⟩, hb => exact absurd rfl hb
    | ⟨0, _⟩, _ | ⟨1, _⟩, _ | ⟨2, _⟩, _ | ⟨3, _⟩, _ =>
      exact ((dat0 (V1 m ρ) c).arrAt_in _ rfl _).trans (A_eq0 (V1 m ρ) c _)
  · exact W2_of_ne m ρ c b fun w e => h ⟨w, e⟩
theorem W8_keep (c : Dev nD) (b : Ref sig .tc) (hb : b ≠ main_v34) :
    W8 m ρ c (Proc.devRef .tc b) = W7 m ρ c (Proc.devRef .tc b) := by
  by_cases h : ∃ w, Pipeline.arrRef spec2 w = b
  · obtain ⟨w, rfl⟩ := h
    refine (W8_arr m ρ c w).trans ?_
    match w, hb with
    | ⟨4, _⟩, hb => exact absurd rfl hb
    | ⟨0, _⟩, _ | ⟨1, _⟩, _ | ⟨2, _⟩, _ | ⟨3, _⟩, _ =>
      exact ((dat2 (V7 m ρ) c).arrAt_in _ rfl _).trans (A_eq2 (V7 m ρ) c _)
  · exact W8_of_ne m ρ c b fun w e => h ⟨w, e⟩
theorem W14_keep (c : Dev nD) (b : Ref sig .tc) (hb : b ≠ main_v54) :
    W14 m ρ c (Proc.devRef .tc b) = W13 m ρ c (Proc.devRef .tc b) := by
  by_cases h : ∃ w, Pipeline.arrRef spec4 w = b
  · obtain ⟨w, rfl⟩ := h
    refine (W14_arr m ρ c w).trans ?_
    match w, hb with
    | ⟨4, _⟩, hb => exact absurd rfl hb
    | ⟨0, _⟩, _ | ⟨1, _⟩, _ | ⟨2, _⟩, _ | ⟨3, _⟩, _ =>
      exact ((dat4 (V13 m ρ) c).arrAt_in _ rfl _).trans (A_eq4 (V13 m ρ) c _)
  · exact W14_of_ne m ρ c b fun w e => h ⟨w, e⟩
/-- A buffer that no host stretch writes and that is no region's output array ends @main at its launch contents. -/
theorem W17_kept (c : Dev nD) (b : Ref sig .tc)
    (h : b ∉ hostOps0_W ∧ b ≠ main_v14 ∧ b ∉ hostOps1_W ∧ b ∉ hostOps1_1_W ∧ b ∉ hostOps1_2_W ∧ (∀ w, Pipeline.arrRef spec1 w ≠ b)
      ∧ b ∉ hostOps2_W ∧ b ≠ main_v34 ∧ b ∉ hostOps3_W ∧ b ∉ hostOps3_1_W ∧ b ∉ hostOps3_2_W ∧ (∀ w, Pipeline.arrRef spec3 w ≠ b)
      ∧ b ∉ hostOps4_W ∧ b ≠ main_v54 ∧ b ∉ hostOps5_W ∧ (∀ w, Pipeline.arrRef spec5 w ≠ b) ∧ b ∉ hostOps6_W) :
    W17 m ρ c (Proc.devRef .tc b) = m ((c : Thread nD τ).loc b) := by
  obtain ⟨h0, o0, h1, h11, h12, o1, h2, o2, h3, h31, h32, o3, h4, o4, h5, o5, h6⟩ := h
  exact (StableHlo.after_of_writes_sub hostOps6 (W16 m ρ c) hostOps6_writes h6).trans <| (W16_of_ne m ρ c b o5).trans <|
    (StableHlo.after_of_writes_sub hostOps5 (W14 m ρ c) hostOps5_writes h5).trans <| (W14_keep m ρ c b o4).trans <|
    (StableHlo.after_of_writes_sub hostOps4 (W12 m ρ c) hostOps4_writes h4).trans <| (W12_of_ne m ρ c b o3).trans <|
    (StableHlo.after_of_writes_sub hostOps3_2 (W10 m ρ c) hostOps3_2_writes h32).trans <| (StableHlo.after_of_writes_sub hostOps3_1 (W9 m ρ c) hostOps3_1_writes h31).trans <|
    (StableHlo.after_of_writes_sub hostOps3 (W8 m ρ c) hostOps3_writes h3).trans <| (W8_keep m ρ c b o2).trans <|
    (StableHlo.after_of_writes_sub hostOps2 (W6 m ρ c) hostOps2_writes h2).trans <| (W6_of_ne m ρ c b o1).trans <|
    (StableHlo.after_of_writes_sub hostOps1_2 (W4 m ρ c) hostOps1_2_writes h12).trans <| (StableHlo.after_of_writes_sub hostOps1_1 (W3 m ρ c) hostOps1_1_writes h11).trans <|
    (StableHlo.after_of_writes_sub hostOps1 (W2 m ρ c) hostOps1_writes h1).trans <| (W2_keep m ρ c b o0).trans (StableHlo.after_of_writes_sub hostOps0 (W0 m ρ c) hostOps0_writes h0)
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
  | ⟨2, _⟩ => fun c => dat2 (V7 m ρ) c
  | ⟨3, _⟩ => fun c => dat3 (V11 m ρ) c
  | ⟨4, _⟩ => fun c => dat4 (V13 m ρ) c
  | ⟨5, _⟩ => fun c => dat5 (V15 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W17 m ρ c) ∗ ∃ r, prngReg c r)
theorem hlast (c : Dev nD) :
    iprop(StableHlo.held (c : Thread nD τ) (Pipeline.ucRefs τ sig) (W17 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO
/-- Entering a region splits its arrays off the other buffers. -/
theorem entry_of (c : Dev nD) {Hub A Z Pf O S : sProp 𝕄} (hsplit : Hub ⊢ iprop(A ∗ Z)) (hPf : (BI.emp : sProp 𝕄) ⊢ Pf)
    (hO : iprop(∃ W, owes (c : Thread nD τ) (0 : CellTallies nD τ sig Unit) W) ⊢ O) :
    iprop((Hub ∗ R (F := F) c) ∗ S) ⊢ |={Set.univ}=> iprop(A ∗ Pf ∗ O ∗ (∃ r, prngReg c r) ∗ Z) := by
  iintro ⟨⟨Hb, Hp, HO⟩, -⟩
  ihave H := hsplit $$ Hb
  icases H with ⟨Ha, Hrest⟩
  imodintro
  isplitl [Ha]; · iexact Ha
  isplitr; · iapply hPf; iempintro
  isplitl [HO]; · iapply hO; iexact HO
  isplitl [Hp]; · iexact Hp
  iexact Hrest
/-- Leaving a region puts its arrays, at their final contents, back among the other buffers. -/
theorem exit_of (c : Dev nD) {A Z Hub O : sProp 𝕄} (hjoin : iprop(A ∗ Z) ⊢ Hub)
    (hO : O ⊢ iprop(∃ W, owes (c : Thread nD τ) (0 : CellTallies nD τ sig Unit) W)) :
    iprop(A ∗ O ∗ (∃ r, prngReg c r) ∗ Z) ⊢ |={Set.univ}=> iprop(Hub ∗ R (F := F) c) := by
  iintro ⟨Ha, HO, HY, Hrest⟩
  imodintro
  isplitl [Ha Hrest]
  · iapply hjoin; isplitl [Ha] <;> iassumption
  isplitl [HY]; · iexact HY
  iapply hO; iexact HO
theorem in_of (X Pf S : sProp 𝕄) : iprop(X ∗ Pf ∗ S) ⊢ iprop(S ∗ X) := by
  iintro ⟨Hp, -, Hr⟩
  isplitl [Hr]; · iexact Hr
  iexact Hp
theorem out_of (S X : sProp 𝕄) : iprop(S ∗ X) ⊢ iprop(X ∗ (BI.emp : sProp 𝕄) ∗ S) := by
  iintro ⟨Hr, Hp⟩
  isplitl [Hp]; · iexact Hp
  isplitr; · iempintro
  iexact Hr
theorem owes_in {cfg : Pipeline.Cfg sig Λ₀} {c : Dev nD} (dat : Dat τ (Elt F) Unit ℕ (UR sig nD τ) ℕ cfg c) (t : Fin (cfg.N + 1))
    (h0 : dat.owed t = 0) (hr : dat.recorded t = Set.univ) :
    iprop(∃ W, owes (c : Thread nD τ) (0 : CellTallies nD τ sig Unit) W) ⊢ (dat.owesAt () t : sProp 𝕄) := by
  unfold Pipeline.Dat.owesAt Pipeline.owesWithin Pipeline.Dat.bound; rw [h0, hr]
  iintro ⟨%W, HO⟩; iexists W; isplitr; · ipureintro; exact fun _ _ => Or.inl trivial
  iexact HO
theorem owes_out {cfg : Pipeline.Cfg sig Λ₀} {c : Dev nD} (dat : Dat τ (Elt F) Unit ℕ (UR sig nD τ) ℕ cfg c) (t : Fin (cfg.N + 1))
    (h0 : dat.owed t = 0) :
    (dat.owesAt () t : sProp 𝕄) ⊢ iprop(∃ W, owes (c : Thread nD τ) (0 : CellTallies nD τ sig Unit) W) := by
  unfold Pipeline.Dat.owesAt Pipeline.owesWithin; rw [h0]
  iintro ⟨%W, -, HO⟩; iexists W; iexact HO
set_option backward.isDefEq.respectTransparency.types false in
/-- A kernel region over the held buffers: entered at the contents `Win`, left at `Wout`, which differ at its arrays only. -/
def mkReg (p : Fin 6) (hw : Pipeline.WinFacts (Pipeline.pin (pcfgs (F := F)) adm p).spec) (hbp : ∀ w : Fin (Pipeline.pin (pcfgs (F := F)) adm p).W, 0 < ((Pipeline.pin (pcfgs (F := F)) adm p).spec w).block.numel)
    (hsw : ∀ (w : Fin (Pipeline.pin (pcfgs (F := F)) adm p).W) (s : Fin ((Pipeline.pin (pcfgs (F := F)) adm p).spec w).nbuf), (((Pipeline.pin (pcfgs (F := F)) adm p).spec w).stage s).IsWhole)
    (haw : ∀ w, ((Pipeline.pin (pcfgs (F := F)) adm p).spec w).arr.IsWhole)
    (Win Wout : Dev nD → Valuation τ sig (Elt F))
    (hbody : ∀ c, Pipeline.BodyObligationLoose (pdats m ρ p c) defs₀ 𝒱₀ () Set.univ)
    (howed : ∀ c t, (pdats m ρ p c).owed t = 0) (hrec : ∀ c t, (pdats m ρ p c).recorded t = Set.univ)
    (hq : ∀ c w, (pdats m ρ p c).q w = fullShare) (hK : (pcfgs (F := F) p).pre.K = 0)
    (hA : ∀ c w, (pdats m ρ p c).A w = Win c (Proc.devRef .tc (Pipeline.arrRef (Pipeline.pin (pcfgs (F := F)) adm p).spec w)))
    (harr : ∀ c w, Wout c (Proc.devRef .tc (Pipeline.arrRef (Pipeline.pin (pcfgs (F := F)) adm p).spec w)) = (pdats m ρ p c).arrAt w (Pipeline.pin (pcfgs (F := F)) adm p).N)
    (hne : ∀ c (b : Ref sig .tc), (∀ w, Pipeline.arrRef (Pipeline.pin (pcfgs (F := F)) adm p).spec w ≠ b) → Wout c (Proc.devRef .tc b) = Win c (Proc.devRef .tc b))
    (hin : ∀ c, (Pipeline.ΦA (Pipeline.pin (pcfgs (F := F)) adm p).spec c : sProp 𝕄) ⊢ (pdats m ρ p c).Φ 0)
    (hout : ∀ c, (pdats m ρ p c).Φ (Fin.last _) ⊢ (Pipeline.ΦA (Pipeline.pin (pcfgs (F := F)) adm p).spec c : sProp 𝕄)) :
    Pipeline.RegionSeg (pcfgs (F := F)) adm (pdats m ρ) () defs₀ 𝒱₀ L lv p where
  win := hw.to₀
  block_pos := hbp
  stage_whole := hsw
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Win c b)
  hentry c := by
    rw [Pipeline.ownSems0_none]
    have hsplit := Pipeline.arrays_of_unscopedBufs (p := p) (pcfgs (F := F)) adm (pdats m ρ) hw haw c
      ((pdats m ρ p c).share_full (hq c)) (fun b => Win c b) (hA c)
    rw [Pipeline.unscopedBufs_held] at hsplit
    exact entry_of c hsplit (by
        unfold Pipeline.prefHeld
        haveI : IsEmpty (Fin (pcfgs (F := F) p).pre.K) := by rw [hK]; infer_instance
        rw [Finset.univ_eq_empty, BI.bigSep_empty])
      (owes_in _ 0 (howed c 0) (hrec c 0))
  hin c := (in_of _ _ _).trans (hin c)
  hout c := by rw [Pipeline.ownSems0_none]; exact (hout c).trans (out_of _ _)
  hexit c := by
    have hjoin := Pipeline.unscopedBufs_of_arrays (p := p) (pcfgs (F := F)) adm (Ix := Unit) (Name := ℕ) (U := UR sig nD τ) (Lvl := ℕ)
      hw haw c (pdats m ρ) ((pdats m ρ p c).share_full (hq c))
      (fun b => Win c b) (fun b => Wout c b) ((pdats m ρ p c).arrAt · (Pipeline.pin (pcfgs (F := F)) adm p).N) (fun w => (harr c w).symm) (fun b hb => hne c b (not_image hb))
    rw [Pipeline.unscopedBufs_held] at hjoin
    exact exit_of c hjoin (owes_out _ _ (howed c _))
set_option backward.isDefEq.respectTransparency.types false in
def reg0 : Pipeline.RegionSeg (pcfgs (F := F)) adm (pdats m ρ) () defs₀ 𝒱₀ L lv 0 :=
  mkReg m ρ 0 launch0.win launch0.block_pos launch0.stage_whole launch0.arr_whole (W1 m ρ) (W2 m ρ) (fun c => (body_obligation0 (V1 m ρ) c).loose) (fun _ _ => rfl) (fun _ _ => rfl)
    (fun _ _ => rfl) rfl (A_eq0 (V1 m ρ)) (W2_arr m ρ) (W2_of_ne m ρ) (fun _ => .rfl) (fun _ => .rfl)
set_option backward.isDefEq.respectTransparency.types false in
def reg1 : Pipeline.RegionSeg (pcfgs (F := F)) adm (pdats m ρ) () defs₀ 𝒱₀ L lv 1 :=
  mkReg m ρ 1 launch1.win launch1.block_pos launch1.stage_whole launch1.arr_whole (W5 m ρ) (W6 m ρ) (fun c => (body_obligation1 (V5 m ρ) c).loose) (fun _ _ => rfl) (fun _ _ => rfl)
    (fun _ _ => rfl) rfl (A_eq1 (V5 m ρ)) (W6_arr m ρ) (W6_of_ne m ρ) (fun _ => .rfl) (fun _ => .rfl)
set_option backward.isDefEq.respectTransparency.types false in
def reg2 : Pipeline.RegionSeg (pcfgs (F := F)) adm (pdats m ρ) () defs₀ 𝒱₀ L lv 2 :=
  mkReg m ρ 2 launch2.win launch2.block_pos launch2.stage_whole launch2.arr_whole (W7 m ρ) (W8 m ρ) (fun c => (body_obligation2 (V7 m ρ) c).loose) (fun _ _ => rfl) (fun _ _ => rfl)
    (fun _ _ => rfl) rfl (A_eq2 (V7 m ρ)) (W8_arr m ρ) (W8_of_ne m ρ) (fun _ => .rfl) (fun _ => .rfl)
set_option backward.isDefEq.respectTransparency.types false in
def reg3 : Pipeline.RegionSeg (pcfgs (F := F)) adm (pdats m ρ) () defs₀ 𝒱₀ L lv 3 :=
  mkReg m ρ 3 launch3.win launch3.block_pos launch3.stage_whole launch3.arr_whole (W11 m ρ) (W12 m ρ) (fun c => (body_obligation3 (V11 m ρ) c).loose) (fun _ _ => rfl) (fun _ _ => rfl)
    (fun _ _ => rfl) rfl (A_eq3 (V11 m ρ)) (W12_arr m ρ) (W12_of_ne m ρ) (fun _ => .rfl) (fun _ => .rfl)
set_option backward.isDefEq.respectTransparency.types false in
def reg4 : Pipeline.RegionSeg (pcfgs (F := F)) adm (pdats m ρ) () defs₀ 𝒱₀ L lv 4 :=
  mkReg m ρ 4 launch4.win launch4.block_pos launch4.stage_whole launch4.arr_whole (W13 m ρ) (W14 m ρ) (fun c => (body_obligation4 (V13 m ρ) c).loose) (fun _ _ => rfl) (fun _ _ => rfl)
    (fun _ _ => rfl) rfl (A_eq4 (V13 m ρ)) (W14_arr m ρ) (W14_of_ne m ρ) (fun _ => .rfl) (fun _ => .rfl)
set_option backward.isDefEq.respectTransparency.types false in
def reg5 : Pipeline.RegionSeg (pcfgs (F := F)) adm (pdats m ρ) () defs₀ 𝒱₀ L lv 5 :=
  mkReg m ρ 5 launch5.win launch5.block_pos launch5.stage_whole launch5.arr_whole (W15 m ρ) (W16 m ρ) (fun c => (body_obligation5 (V15 m ρ) c).loose) (fun _ _ => rfl) (fun _ _ => rfl)
    (fun _ _ => rfl) rfl (A_eq5 (V15 m ρ)) (W16_arr m ρ) (W16_of_ne m ρ) (hin5 (V15 m ρ)) (hout5 (V15 m ρ))
abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .host (hseg hostOps3_1 hostOps3_1_sub hostOps3_1_fresh (W9 m ρ)),
    .host (hseg hostOps3_2 hostOps3_2_sub hostOps3_2_fresh (W10 m ρ)),
    .region (reg3 m ρ),
    .host (hseg hostOps4 hostOps4_sub hostOps4_fresh (W12 m ρ)),
    .region (reg4 m ρ),
    .host (hseg hostOps5 hostOps5_sub hostOps5_fresh (W14 m ρ)),
    .region (reg5 m ρ),
    .host (hseg hostOps6 hostOps6_sub hostOps6_fresh (W16 m ρ)) ]
set_option backward.isDefEq.respectTransparency.types false in
/-- Every weakly fair execution of @main terminates without a fault, each buffer ending at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W17 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h => h)
end Cert.Kernel.Hand
end
-- ==== Proof.KI.R0.lean ====
import proofs.«428498_j27358941675990_1_alg».proof.Proof.Gen.KernelIdeal.Launch
import proofs.«428498_j27358941675990_1_alg».proof.Proof.Gen.KernelIdeal.Skeleton
import proofs.«428498_j27358941675990_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S2000x128 := Rect.unit (s := S2000x128) ![0, 0] S2000x128.size inb_S2000x128_S2000x128_0_0
abbrev r0_b : Rect S128x256 := Rect.unit (s := S128x256) ![0, 0] S128x256.size inb_S128x256_S128x256_0_0
abbrev r0_c : Rect S256x256 := Rect.unit (s := S256x256) ![0, 0] S256x256.size inb_S256x256_S256x256_0_0
abbrev r0_out : Rect S2000x256 := Rect.unit (s := S2000x256) ![0, 0] S2000x256.size inb_S2000x256_S2000x256_0_0

def out0_4 (x0 x1 : Vec F S2000x128 .f32) (x2 : Vec F S128x256 .f32) (x3 : Vec F S256x256 .f32) : Vec F S2000x256 .f32 :=
  View.canon [⟨r0_out, k0_pay1 (View.ld x0 r0_a) (View.ld x1 r0_a) (View.ld x2 r0_b) (View.ld x3 r0_c)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) :
    (dat0 V c).after 4 t = out0_4 (iblk0 V c 0 t) (iblk0 V c 1 t) (iblk0 V c 2 t) (iblk0 V c 3 t) := by dsimp only [dat0]

theorem before0 (c : Dev nD) (t : Fin cfg0.N) :
    (∀ d, (dat0 V c).before 0 t d = iblk0 V c 0 t) ∧ (∀ d, (dat0 V c).before 1 t d = iblk0 V c 1 t)
    ∧ (∀ d, (dat0 V c).before 2 t d = iblk0 V c 2 t) ∧ (∀ d, (dat0 V c).before 3 t d = iblk0 V c 3 t) := by
  refine ⟨?_, ?_, ?_, ?_⟩ <;> exact fun d =>
    ((dat0 V c).before_in_eq_fetched _ rfl (fun _ => rfl) (fun _ _ _ => rfl) (fun _ => rfl) t d).trans rfl

theorem body_obligation0 (c : Dev nD) : BodyObligation (dat0 (F := F) V c) (defs₀ (F := F)) Variants.none () Set.univ := fun t => by
  obtain ⟨h0, h1, h2, h3⟩ := before0 V c t
  rw [bigSep_W0, bigSep_W0, show (dat0 V c).owesAt () t.succ = (dat0 V c).owesAt () t.castSucc from rfl]
  simp only [h0, h1, h2, h3]
  dsimp only [dat0]
  show _ ⊢ wp _ _ _ (bodyAt0 t) _
  simp only [bodyAt0, cc0__gin_mlp_kernel_eq_skeleton]; unfold cc0__gin_mlp_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩⟩
  sl_exec
  sl_step
  iframe HΦ Ho
  isplitl [H0]; · iexists f0; iframe H0; ipureintro; exact hf0
  isplitl [H1]; · iexists f1; iframe H1; ipureintro; exact hf1
  isplitl [H2]; · iexists f2; iframe H2; ipureintro; exact hf2
  isplitl [H3]; · iexists f3; iframe H3; ipureintro; exact hf3
  iexists _; iframe H4; ipureintro
  rw [← hf0, ← hf1, ← hf2, ← hf3]
  exact View.read_writes_eq_canon _ _ _ (View.cover_of_tiled _ S2000x256.size (by rfl))

end Region0

end Cert.KernelIdeal.Hand

end
-- ==== Proof.KI.R1.lean ====
import proofs.«428498_j27358941675990_1_alg».proof.Proof.Gen.KernelIdeal.Launch
import proofs.«428498_j27358941675990_1_alg».proof.Proof.Gen.KernelIdeal.Skeleton
import proofs.«428498_j27358941675990_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S2000x256 := Rect.unit (s := S2000x256) ![0, 0] S2000x256.size inb_S2000x256_S2000x256_0_0
abbrev r1_b : Rect S1x256 := Rect.unit (s := S1x256) ![0, 0] S1x256.size inb_S1x256_S1x256_0_0
abbrev r1_out : Rect S2000x256 := Rect.unit (s := S2000x256) ![0, 0] S2000x256.size inb_S2000x256_S2000x256_0_0

def out1_5 (x0 : Vec F S2000x256 .f32) (x1 x2 x3 x4 : Vec F S1x256 .f32) : Vec F S2000x256 .f32 :=
  View.canon [⟨r1_out, k1_pay1 (View.ld x0 r1_a) (View.ld x1 r1_b) (View.ld x2 r1_b) (View.ld x3 r1_b) (View.ld x4 r1_b)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1 (c : Dev nD) (t : Fin cfg1.N) :
    (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t)
    ∧ (∀ d, (dat1 V c).before 4 t d = iblk1 V c 4 t) := by
  refine ⟨?_, ?_, ?_, ?_, ?_⟩ <;> exact fun d =>
    ((dat1 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  obtain ⟨h0, h1, h2, h3, h4⟩ := before1 V c t
  rw [bigSep_W1, bigSep_W1, show (dat1 V c).owesAt () t.succ = (dat1 V c).owesAt () t.castSucc from rfl]
  simp only [h0, h1, h2, h3, h4]
  dsimp only [dat1]
  show _ ⊢ wp _ _ _ (bodyAt1 t) _
  simp only [bodyAt1, cc1__bn_kernel_eq_skeleton]; unfold cc1__bn_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  sl_exec
  sl_step
  iframe HΦ Ho
  isplitl [H0]; · iexists f0; iframe H0; ipureintro; exact hf0
  isplitl [H1]; · iexists f1; iframe H1; ipureintro; exact hf1
  isplitl [H2]; · iexists f2; iframe H2; ipureintro; exact hf2
  isplitl [H3]; · iexists f3; iframe H3; ipureintro; exact hf3
  isplitl [H4]; · iexists f4; iframe H4; ipureintro; exact hf4
  iexists _; iframe H5; ipureintro
  rw [← hf0, ← hf1, ← hf2, ← hf3, ← hf4]
  exact View.read_writes_eq_canon _ _ _ (View.cover_of_tiled _ S2000x256.size (by rfl))

end Region1

end Cert.KernelIdeal.Hand

end
-- ==== Proof.KI.R2.lean ====
import proofs.«428498_j27358941675990_1_alg».proof.Proof.Gen.KernelIdeal.Launch
import proofs.«428498_j27358941675990_1_alg».proof.Proof.Gen.KernelIdeal.Skeleton
import proofs.«428498_j27358941675990_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S2000x256 := Rect.unit (s := S2000x256) ![0, 0] S2000x256.size inb_S2000x256_S2000x256_0_0
abbrev r2_b : Rect S256x256 := Rect.unit (s := S256x256) ![0, 0] S256x256.size inb_S256x256_S256x256_0_0
abbrev r2_c : Rect S256x256 := Rect.unit (s := S256x256) ![0, 0] S256x256.size inb_S256x256_S256x256_0_0
abbrev r2_out : Rect S2000x256 := Rect.unit (s := S2000x256) ![0, 0] S2000x256.size inb_S2000x256_S2000x256_0_0

def out2_4 (x0 x1 : Vec F S2000x256 .f32) (x2 : Vec F S256x256 .f32) (x3 : Vec F S256x256 .f32) : Vec F S2000x256 .f32 :=
  View.canon [⟨r2_out, k2_pay1 (View.ld x0 r2_a) (View.ld x1 r2_a) (View.ld x2 r2_b) (View.ld x3 r2_c)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) :
    (dat2 V c).after 4 t = out2_4 (iblk2 V c 0 t) (iblk2 V c 1 t) (iblk2 V c 2 t) (iblk2 V c 3 t) := by dsimp only [dat2]

theorem before2 (c : Dev nD) (t : Fin cfg2.N) :
    (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t) := by
  refine ⟨?_, ?_, ?_, ?_⟩ <;> exact fun d =>
    ((dat2 V c).before_in_eq_fetched _ rfl (fun _ => rfl) (fun _ _ _ => rfl) (fun _ => rfl) t d).trans rfl

theorem body_obligation2 (c : Dev nD) : BodyObligation (dat2 (F := F) V c) (defs₀ (F := F)) Variants.none () Set.univ := fun t => by
  obtain ⟨h0, h1, h2, h3⟩ := before2 V c t
  rw [bigSep_W2, bigSep_W2, show (dat2 V c).owesAt () t.succ = (dat2 V c).owesAt () t.castSucc from rfl]
  simp only [h0, h1, h2, h3]
  dsimp only [dat2]
  show _ ⊢ wp _ _ _ (bodyAt2 t) _
  simp only [bodyAt2, cc2__gin_mlp_kernel_eq_skeleton]; unfold cc2__gin_mlp_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩⟩
  sl_exec
  sl_step
  iframe HΦ Ho
  isplitl [H0]; · iexists f0; iframe H0; ipureintro; exact hf0
  isplitl [H1]; · iexists f1; iframe H1; ipureintro; exact hf1
  isplitl [H2]; · iexists f2; iframe H2; ipureintro; exact hf2
  isplitl [H3]; · iexists f3; iframe H3; ipureintro; exact hf3
  iexists _; iframe H4; ipureintro
  rw [← hf0, ← hf1, ← hf2, ← hf3]
  exact View.read_writes_eq_canon _ _ _ (View.cover_of_tiled _ S2000x256.size (by rfl))

end Region2

end Cert.KernelIdeal.Hand

end
-- ==== Proof.KI.R3.lean ====
import proofs.«428498_j27358941675990_1_alg».proof.Proof.Gen.KernelIdeal.Launch
import proofs.«428498_j27358941675990_1_alg».proof.Proof.Gen.KernelIdeal.Skeleton
import proofs.«428498_j27358941675990_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_a : Rect S2000x256 := Rect.unit (s := S2000x256) ![0, 0] S2000x256.size inb_S2000x256_S2000x256_0_0
abbrev r3_b : Rect S1x256 := Rect.unit (s := S1x256) ![0, 0] S1x256.size inb_S1x256_S1x256_0_0
abbrev r3_out : Rect S2000x256 := Rect.unit (s := S2000x256) ![0, 0] S2000x256.size inb_S2000x256_S2000x256_0_0

def out3_5 (x0 : Vec F S2000x256 .f32) (x1 x2 x3 x4 : Vec F S1x256 .f32) : Vec F S2000x256 .f32 :=
  View.canon [⟨r3_out, k3_pay1 (View.ld x0 r3_a) (View.ld x1 r3_b) (View.ld x2 r3_b) (View.ld x3 r3_b) (View.ld x4 r3_b)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3 (c : Dev nD) (t : Fin cfg3.N) :
    (∀ d, (dat3 V c).before 0 t d = iblk3 V c 0 t) ∧ (∀ d, (dat3 V c).before 1 t d = iblk3 V c 1 t)
    ∧ (∀ d, (dat3 V c).before 2 t d = iblk3 V c 2 t) ∧ (∀ d, (dat3 V c).before 3 t d = iblk3 V c 3 t)
    ∧ (∀ d, (dat3 V c).before 4 t d = iblk3 V c 4 t) := by
  refine ⟨?_, ?_, ?_, ?_, ?_⟩ <;> exact fun d =>
    ((dat3 V c).before_in_eq_fetched _ rfl (fun _ => rfl) (fun _ _ _ => rfl) (fun _ => rfl) t d).trans rfl

theorem body_obligation3 (c : Dev nD) : BodyObligation (dat3 (F := F) V c) (defs₀ (F := F)) Variants.none () Set.univ := fun t => by
  obtain ⟨h0, h1, h2, h3, h4⟩ := before3 V c t
  rw [bigSep_W3, bigSep_W3, show (dat3 V c).owesAt () t.succ = (dat3 V c).owesAt () t.castSucc from rfl]
  simp only [h0, h1, h2, h3, h4]
  dsimp only [dat3]
  show _ ⊢ wp _ _ _ (bodyAt3 t) _
  simp only [bodyAt3, cc3__bn_kernel_eq_skeleton]; unfold cc3__bn_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  sl_exec
  sl_step
  iframe HΦ Ho
  isplitl [H0]; · iexists f0; iframe H0; ipureintro; exact hf0
  isplitl [H1]; · iexists f1; iframe H1; ipureintro; exact hf1
  isplitl [H2]; · iexists f2; iframe H2; ipureintro; exact hf2
  isplitl [H3]; · iexists f3; iframe H3; ipureintro; exact hf3
  isplitl [H4]; · iexists f4; iframe H4; ipureintro; exact hf4
  iexists _; iframe H5; ipureintro
  rw [← hf0, ← hf1, ← hf2, ← hf3, ← hf4]
  exact View.read_writes_eq_canon _ _ _ (View.cover_of_tiled _ S2000x256.size (by rfl))

end Region3

end Cert.KernelIdeal.Hand

end
-- ==== Proof.KI.R4.lean ====
import proofs.«428498_j27358941675990_1_alg».proof.Proof.Gen.KernelIdeal.Launch
import proofs.«428498_j27358941675990_1_alg».proof.Proof.Gen.KernelIdeal.Skeleton
import proofs.«428498_j27358941675990_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_a : Rect S2000x256 := Rect.unit (s := S2000x256) ![0, 0] S2000x256.size inb_S2000x256_S2000x256_0_0
abbrev r4_b : Rect S256x256 := Rect.unit (s := S256x256) ![0, 0] S256x256.size inb_S256x256_S256x256_0_0
abbrev r4_c : Rect S256x256 := Rect.unit (s := S256x256) ![0, 0] S256x256.size inb_S256x256_S256x256_0_0
abbrev r4_out : Rect S2000x256 := Rect.unit (s := S2000x256) ![0, 0] S2000x256.size inb_S2000x256_S2000x256_0_0

def out4_4 (x0 x1 : Vec F S2000x256 .f32) (x2 : Vec F S256x256 .f32) (x3 : Vec F S256x256 .f32) : Vec F S2000x256 .f32 :=
  View.canon [⟨r4_out, k4_pay1 (View.ld x0 r4_a) (View.ld x1 r4_a) (View.ld x2 r4_b) (View.ld x3 r4_c)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_4 (c : Dev nD) (t : Fin cfg4.N) :
    (dat4 V c).after 4 t = out4_4 (iblk4 V c 0 t) (iblk4 V c 1 t) (iblk4 V c 2 t) (iblk4 V c 3 t) := by dsimp only [dat4]

theorem before4 (c : Dev nD) (t : Fin cfg4.N) :
    (∀ d, (dat4 V c).before 0 t d = iblk4 V c 0 t) ∧ (∀ d, (dat4 V c).before 1 t d = iblk4 V c 1 t)
    ∧ (∀ d, (dat4 V c).before 2 t d = iblk4 V c 2 t) ∧ (∀ d, (dat4 V c).before 3 t d = iblk4 V c 3 t) := by
  refine ⟨?_, ?_, ?_, ?_⟩ <;> exact fun d =>
    ((dat4 V c).before_in_eq_fetched _ rfl (fun _ => rfl) (fun _ _ _ => rfl) (fun _ => rfl) t d).trans rfl

theorem body_obligation4 (c : Dev nD) : BodyObligation (dat4 (F := F) V c) (defs₀ (F := F)) Variants.none () Set.univ := fun t => by
  obtain ⟨h0, h1, h2, h3⟩ := before4 V c t
  rw [bigSep_W4, bigSep_W4, show (dat4 V c).owesAt () t.succ = (dat4 V c).owesAt () t.castSucc from rfl]
  simp only [h0, h1, h2, h3]
  dsimp only [dat4]
  show _ ⊢ wp _ _ _ (bodyAt4 t) _
  simp only [bodyAt4, cc4__gin_mlp_kernel_eq_skeleton]; unfold cc4__gin_mlp_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩⟩
  sl_exec
  sl_step
  iframe HΦ Ho
  isplitl [H0]; · iexists f0; iframe H0; ipureintro; exact hf0
  isplitl [H1]; · iexists f1; iframe H1; ipureintro; exact hf1
  isplitl [H2]; · iexists f2; iframe H2; ipureintro; exact hf2
  isplitl [H3]; · iexists f3; iframe H3; ipureintro; exact hf3
  iexists _; iframe H4; ipureintro
  rw [← hf0, ← hf1, ← hf2, ← hf3]
  exact View.read_writes_eq_canon _ _ _ (View.cover_of_tiled _ S2000x256.size (by rfl))

end Region4

end Cert.KernelIdeal.Hand

end
-- ==== Proof.KI.R5.lean ====
import proofs.«428498_j27358941675990_1_alg».proof.Proof.Gen.KernelIdeal.Launch
import proofs.«428498_j27358941675990_1_alg».proof.Proof.Gen.KernelIdeal.Skeleton
import proofs.«428498_j27358941675990_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond5_0 (i : grid5.Coords) : Prop :=
  (Scalar.cmpi .ne (Scalar.extui (Scalar.cmpi .eq (BitVec.ofNat 32 (i 0).val) 0#32)) 0#32) = 1#1
theorem hcond5_0 : ∀ t : Fin cfg5.N, cond5_0 (grid5.coords t) ↔ t.val = 0 :=
  (by decide +kernel : ∀ t : Fin grid5.N, cond5_0 (grid5.coords t) ↔ t.val = 0)

abbrev cond5_1 (i : grid5.Coords) : Prop := k5_cond2 i = 1#1
theorem idleAt5_2 : ∀ t : Fin cfg5.N, ¬cond5_1 (grid5.coords t) → idle5 2 (grid5.coords t) = true ∧ (win5 2).flush t = false := by decide +kernel
theorem liveAt5_2 : ∀ t : Fin cfg5.N, cond5_1 (grid5.coords t) → idle5 2 (grid5.coords t) = false := by decide +kernel
theorem hcond5 : ∀ t : Fin cfg5.N, ¬(cond5_0 (grid5.coords t) ∧ cond5_1 (grid5.coords t)) := by decide +kernel

abbrev r5_0 : Rect S5000x256 := Rect.unit (s := S5000x256) ![0, 0] S5000x256.size inb_S5000x256_S5000x256_0_0
abbrev r5_1 : Rect S5000x1 := Rect.unit (s := S5000x1) ![0, 0] S5000x1.size inb_S5000x1_S5000x1_0_0
abbrev r5_2 : Rect S256x256 := Rect.unit (s := S256x256) ![0, 0] S256x256.size inb_S256x256_S256x256_0_0

abbrev scM5 : Memref sig .tc .vmem S256x256 .f32 := Memref.whole cc5_scratch0

theorem hz2 : (![0, 0] : Fin 2 → ℕ) = fun _ => 0 := by
  funext a; fin_cases a <;> rfl

theorem cover5 (w : Vec F S256x256 .f32) (L : List (View.Piece (Elt F) S256x256 .f32)) (y : S256x256.Idx) :
    ∃ pc ∈ ((⟨r5_2, w⟩ : View.Piece (Elt F) S256x256 .f32) :: L), y ∈ pc.1.set :=
  ⟨_, List.mem_cons_self .., View.mem_set_unit_zero (S := S256x256) hz2 inb_S256x256_S256x256_0_0 y⟩

-- One triple for every point: the two branch conditions say whether the accumulator starts from the zero fill and whether the output receives it.
theorem sound_kernel5 {c : Dev nD} {E : Set ℕ} {i : grid5.Coords}
    {arg1 : Memref sig .tc .vmem S5000x256 .f32} {harg1 : arg1.IsWhole} {arg2 : Memref sig .tc .vmem S5000x1 .i32} {harg2 : arg2.IsWhole}
    {arg3 : Memref sig .tc .vmem S256x256 .f32} {harg3 : arg3.IsWhole} {arg4 : Memref sig .tc .vmem S256x256 .f32} {harg4 : arg4.IsWhole}
    (hc : ¬(cond5_0 i ∧ cond5_1 i))
    {x0 : Vec F S5000x256 .f32} {x1 : Vec F S5000x1 .i32} {xi2 xs : Vec F S256x256 .f32} {K : PUnit → sProp 𝕄} :
    iprop(owns c arg1 fullShare x0 ∗ owns c arg2 fullShare x1 ∗ owns c arg3 fullShare xi2 ∗ owns c arg4 fullShare xs
        ∗ (iprop(owns c arg1 fullShare x0 ∗ owns c arg2 fullShare x1
            ∗ owns c arg3 fullShare (if cond5_1 i then k5_pay2 (View.ld x1 r5_1) (View.ld x0 r5_0) xs else xi2)
            ∗ owns c arg4 fullShare (k5_pay2 (View.ld x1 r5_1) (View.ld x0 r5_0) (if cond5_0 i then k5_pay1 else xs))) -∗ K ⟨⟩))
      ⊢ wp frame (wpE (defs₀ (F := F)) Variants.none c none) E (cc5__pool_kernel i arg1 harg1 arg2 harg2 arg3 harg3 arg4 harg4) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  by_cases hc0 : cond5_0 i <;> by_cases hc1 : cond5_1 i
  · exact absurd ⟨hc0, hc1⟩ hc
  all_goals
    first | simp only [if_neg hc0] | simp only [if_pos hc0]
    first | simp only [if_neg hc1] | simp only [if_pos hc1]
    sl_exec (disch := first | exact hc0 | exact hc1)
    sl_step
    iapply Hk
    isplitl [H0]; · iexists f0; iframe H0; ipureintro; rfl
    isplitl [H1]; · iexists f1; iframe H1; ipureintro; rfl
    isplitl [H2] <;>
    · iexists _; (first | iframe H2 | iframe H3); ipureintro; (try sl_unfold_words)
      first
      | rw [View.read_writes_eq_canon _ _ _ (cover5 _ _)]
        simp only [View.canon_cons_unit_zero (S := S256x256) hz2, View.readAt_eq_ld,
          View.readCov_unit_zero (S := S256x256) _ hz2, View.ld_unit_zero (S := S256x256) hz2]
      | rfl

-- The region invariant with the accumulator's contents named `X`.
def PhiN5 (c : Dev nD) (X : Vec F S256x256 .f32) : sProp 𝕄 :=
  iprop(iprop(owns c scM5 fullShare X
    ∗ Pipeline.scopedRestBut (Ix := Unit) (Name := ℕ) (U := UR sig nD τ) (Lvl := ℕ) (Val := Elt F) spec5 c [cc5_scratch0])
    ∗ (∃ r, prngReg c r))

section Region5
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def accAt5 (c : Dev nD) : (n : ℕ) → n < cfg5.N → Vec F S256x256 .f32
  | 0, hn => k5_pay2 (View.ld (iblk5 V c 1 ⟨0, hn⟩) r5_1) (View.ld (iblk5 V c 0 ⟨0, hn⟩) r5_0) (k5_pay1 (F := F))
  | n + 1, hn => k5_pay2 (View.ld (iblk5 V c 1 ⟨n + 1, hn⟩) r5_1) (View.ld (iblk5 V c 0 ⟨n + 1, hn⟩) r5_0)
      (accAt5 c n (Nat.lt_of_succ_lt hn))

theorem accAt5_zero (c : Dev nD) (hn : 0 < cfg5.N) :
    accAt5 V c 0 hn = k5_pay2 (View.ld (iblk5 V c 1 ⟨0, hn⟩) r5_1) (View.ld (iblk5 V c 0 ⟨0, hn⟩) r5_0) (k5_pay1 (F := F)) := rfl

theorem accAt5_succ (c : Dev nD) (n : ℕ) (hn : n + 1 < cfg5.N) :
    accAt5 V c (n + 1) hn = k5_pay2 (View.ld (iblk5 V c 1 ⟨n + 1, hn⟩) r5_1) (View.ld (iblk5 V c 0 ⟨n + 1, hn⟩) r5_0)
      (accAt5 V c n (Nat.lt_of_succ_lt hn)) := rfl

-- The invariant before position `n`: from the second point on the accumulator holds what the point before left.
def PhiS5 (c : Dev nD) : (n : ℕ) → n ≤ cfg5.N → sProp 𝕄
  | 0, _ => Pipeline.ΦA spec5 c
  | n + 1, hn => PhiN5 c (accAt5 V c n hn)

theorem PhiS5_pos (c : Dev nD) (n : ℕ) (h : n ≤ cfg5.N) (hz : n ≠ 0) :
    PhiS5 V c n h = PhiN5 c (accAt5 V c (n - 1) (by omega)) := by
  cases n with
  | zero => exact absurd rfl hz
  | succ n => rfl

theorem PhiA5_eq (c : Dev nD) :
    (Pipeline.ΦA spec5 c : sProp 𝕄)
      = iprop(iprop((∃ d, owns c scM5 fullShare d)
          ∗ Pipeline.scopedRestBut (Ix := Unit) (Name := ℕ) (U := UR sig nD τ) (Lvl := ℕ) (Val := Elt F) spec5 c [cc5_scratch0])
          ∗ (∃ r, prngReg c r)) := by
  unfold Pipeline.ΦA; rw [scopedRest5_split]; simp only [scM5, owns_whole]; try rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => accAt5 V c t.val t.isLt
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_2 (c : Dev nD) (t : Fin cfg5.N) : (dat5 V c).after 2 t = accAt5 V c t.val t.isLt := by dsimp only [dat5]

theorem before5 (c : Dev nD) (t : Fin cfg5.N) :
    (∀ d, (dat5 V c).before 0 t d = iblk5 V c 0 t) ∧ (∀ d, (dat5 V c).before 1 t d = iblk5 V c 1 t) := by
  refine ⟨?_, ?_⟩ <;> exact fun d =>
    ((dat5 V c).before_in_eq_fetched _ rfl (fun _ => rfl) (fun _ _ _ => rfl) (fun _ => rfl) t d).trans rfl

theorem accAt5_first (c : Dev nD) (t : Fin cfg5.N) (hz : t.val = 0) :
    accAt5 V c t.val t.isLt = k5_pay2 (View.ld (iblk5 V c 1 t) r5_1) (View.ld (iblk5 V c 0 t) r5_0) (k5_pay1 (F := F)) := by
  obtain ⟨n, hn⟩ := t
  cases n with
  | zero => rfl
  | succ n => exact absurd hz (Nat.succ_ne_zero n)

theorem accAt5_later (c : Dev nD) (t : Fin cfg5.N) (hz : t.val ≠ 0) :
    accAt5 V c t.val t.isLt = k5_pay2 (View.ld (iblk5 V c 1 t) r5_1) (View.ld (iblk5 V c 0 t) r5_0)
      (accAt5 V c (t.val - 1) (Nat.lt_of_le_of_lt (Nat.sub_le _ _) t.isLt)) := by
  obtain ⟨n, hn⟩ := t
  cases n with
  | zero => exact absurd rfl hz
  | succ n => rfl

theorem body_obligation5 (c : Dev nD) : BodyObligation (dat5 (F := F) V c) (defs₀ (F := F)) Variants.none () Set.univ := fun t => by
  obtain ⟨hb0, hb1⟩ := before5 V c t
  rw [bigSep_W5, bigSep_W5, show (dat5 V c).owesAt () t.succ = (dat5 V c).owesAt () t.castSucc from rfl,
    show (dat5 V c).Φ t.succ = PhiN5 c (accAt5 V c t.val t.isLt) from rfl,
    show (dat5 V c).Φ t.castSucc = PhiS5 V c t.val (Nat.le_of_lt t.isLt) from rfl]
  simp only [hb0, hb1]
  dsimp only [dat5]
  show _ ⊢ wp _ _ _ (bodyAt5 t) _
  by_cases h1 : cond5_1 (grid5.coords t)
  · have h0 : ¬cond5_0 (grid5.coords t) := fun h => hcond5 t ⟨h, h1⟩
    have hz : t.val ≠ 0 := mt (hcond5_0 t).mpr h0
    rw [liveAt5_2 t h1, PhiS5_pos V c _ _ hz, accAt5_later V c t hz]
    dsimp only [PhiN5]
    iintro ⟨⟨⟨HS, HR⟩, Hg⟩, Ho, ⟨%d0, H0⟩, ⟨%d1, H1⟩, ⟨%d2, H2⟩⟩
    iapply (sound_kernel5 (hcond5 t))
    iframe H0 H1 H2 HS
    iintro ⟨H0, H1, H2, HS⟩
    simp only [if_pos h1, if_neg h0]
    iframe
  · rw [(idleAt5_2 t h1).1, (idleAt5_2 t h1).2]
    by_cases h0 : cond5_0 (grid5.coords t)
    · have hz : t.val = 0 := (hcond5_0 t).mp h0
      rw [show PhiS5 V c t.val (Nat.le_of_lt t.isLt) = Pipeline.ΦA spec5 c from by simp only [hz]; rfl,
        PhiA5_eq, accAt5_first V c t hz]
      dsimp only [PhiN5]
      iintro ⟨⟨⟨⟨%ds, HS⟩, HR⟩, Hg⟩, Ho, ⟨%d0, H0⟩, ⟨%d1, H1⟩, ⟨%d2, H2⟩⟩
      iapply (sound_kernel5 (hcond5 t))
      iframe H0 H1 H2 HS
      iintro ⟨H0, H1, H2, HS⟩
      simp only [if_pos h0, if_neg h1]
      iframe HS HR Hg Ho H0 H1
      iexists _; iexact H2
    · have hz : t.val ≠ 0 := mt (hcond5_0 t).mpr h0
      rw [PhiS5_pos V c _ _ hz, accAt5_later V c t hz]
      dsimp only [PhiN5]
      iintro ⟨⟨⟨HS, HR⟩, Hg⟩, Ho, ⟨%d0, H0⟩, ⟨%d1, H1⟩, ⟨%d2, H2⟩⟩
      iapply (sound_kernel5 (hcond5 t))
      iframe H0 H1 H2 HS
      iintro ⟨H0, H1, H2, HS⟩
      simp only [if_neg h0, if_neg h1]
      iframe HS HR Hg Ho H0 H1
      iexists _; iexact H2

theorem hin5 (c : Dev nD) : Pipeline.ΦA spec5 c ⊢ (dat5 V c).Φ 0 :=
  Idealize.SL.BI.Entails.refl _

-- After the last point the accumulator's named contents are forgotten.
theorem hout5 (c : Dev nD) : (dat5 V c).Φ (Fin.last cfg5.N) ⊢ Pipeline.ΦA spec5 c := by
  rw [show (dat5 V c).Φ (Fin.last cfg5.N) = PhiS5 V c _ (Nat.le_of_lt_succ (Fin.last cfg5.N).isLt) from rfl,
    PhiS5_pos V c _ _ (by rw [Fin.val_last, show cfg5.N = 10 from N_5]; decide), PhiA5_eq]
  unfold PhiN5
  iintro ⟨⟨HS, HR⟩, Hg⟩
  iframe HR Hg
  iexists _; iexact HS

end Region5

end Cert.KernelIdeal.Hand

end
-- ==== Proof.KI.Run.lean ====
import proofs.«428498_j27358941675990_1_alg».proof.Proof.Gen.KernelIdeal.Launch
import proofs.«428498_j27358941675990_1_alg».proof.Proof.Gen.KernelIdeal.Skeleton
import proofs.«428498_j27358941675990_1_alg».proof.Proof.Gen.KernelIdeal.Points
import proofs.«428498_j27358941675990_1_alg».proof.Proof.Gen.KernelIdeal.Regions
import proofs.«428498_j27358941675990_1_alg».proof.Proof.KI.R0
import proofs.«428498_j27358941675990_1_alg».proof.Proof.KI.R1
import proofs.«428498_j27358941675990_1_alg».proof.Proof.KI.R2
import proofs.«428498_j27358941675990_1_alg».proof.Proof.KI.R3
import proofs.«428498_j27358941675990_1_alg».proof.Proof.KI.R4
import proofs.«428498_j27358941675990_1_alg».proof.Proof.KI.R5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
/-- The buffers' contents at each boundary between two items of @main, from the launch memory on: a host stretch applies its operations, a kernel region replaces its arrays by what its grid leaves. -/
abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
abbrev W9 : Dev nD → Valuation τ sig (Elt F) := fun c => StableHlo.after hostOps3 (W8 m ρ c)
abbrev W10 : Dev nD → Valuation τ sig (Elt F) := fun c => StableHlo.after hostOps3_1 (W9 m ρ c)
abbrev W11 : Dev nD → Valuation τ sig (Elt F) := fun c => StableHlo.after hostOps3_2 (W10 m ρ c)
abbrev V11 : (c : Dev nD) → (b : Ref sig .tc) → Buf (Elt F) ((c : Thread nD τ).loc b) := fun c b => W11 m ρ c b
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
abbrev V12 : (c : Dev nD) → (b : Ref sig .tc) → Buf (Elt F) ((c : Thread nD τ).loc b) := fun c b => W12 m ρ c b
abbrev W13 : Dev nD → Valuation τ sig (Elt F) := fun c => StableHlo.after hostOps4 (W12 m ρ c)
abbrev V13 : (c : Dev nD) → (b : Ref sig .tc) → Buf (Elt F) ((c : Thread nD τ).loc b) := fun c b => W13 m ρ c b
def W14 (c : Dev nD) : Valuation τ sig (Elt F) :=
  Pipeline.withArrays spec4 c (W13 m ρ c) fun w => (dat4 (V13 m ρ) c).arrAt w cfg4.N
theorem W14_arr (c : Dev nD) (w : Fin cfg4.W) :
    W14 m ρ c (Proc.devRef .tc (Pipeline.arrRef spec4 w)) = (dat4 (V13 m ρ) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m ρ c (Proc.devRef .tc b) = W13 m ρ c (Proc.devRef .tc b) := by
  unfold W14; exact Pipeline.withArrays_of_ne spec4 c _ _ b hb
abbrev V14 : (c : Dev nD) → (b : Ref sig .tc) → Buf (Elt F) ((c : Thread nD τ).loc b) := fun c b => W14 m ρ c b
abbrev W15 : Dev nD → Valuation τ sig (Elt F) := fun c => StableHlo.after hostOps5 (W14 m ρ c)
abbrev V15 : (c : Dev nD) → (b : Ref sig .tc) → Buf (Elt F) ((c : Thread nD τ).loc b) := fun c b => W15 m ρ c b
def W16 (c : Dev nD) : Valuation τ sig (Elt F) :=
  Pipeline.withArrays spec5 c (W15 m ρ c) fun w => (dat5 (V15 m ρ) c).arrAt w cfg5.N
theorem W16_arr (c : Dev nD) (w : Fin cfg5.W) :
    W16 m ρ c (Proc.devRef .tc (Pipeline.arrRef spec5 w)) = (dat5 (V15 m ρ) c).arrAt w cfg5.N := by
  unfold W16; exact Pipeline.withArrays_arr spec5 launch5.win.arr_inj c _ _ w
theorem W16_of_ne (c : Dev nD) (b : Ref sig .tc) (hb : ∀ w, Pipeline.arrRef spec5 w ≠ b) :
    W16 m ρ c (Proc.devRef .tc b) = W15 m ρ c (Proc.devRef .tc b) := by
  unfold W16; exact Pipeline.withArrays_of_ne spec5 c _ _ b hb
abbrev V16 : (c : Dev nD) → (b : Ref sig .tc) → Buf (Elt F) ((c : Thread nD τ).loc b) := fun c b => W16 m ρ c b
abbrev W17 : Dev nD → Valuation τ sig (Elt F) := fun c => StableHlo.after hostOps6 (W16 m ρ c)
theorem not_image {W : ℕ} {f : Fin W → Ref sig .tc} {b : Ref sig .tc} (hb : b ∉ Finset.univ.image f) (w : Fin W) : f w ≠ b :=
  fun e => hb (Finset.mem_image.mpr ⟨w, Finset.mem_univ _, e⟩)
/-- A region changes only its output array: its input arrays and every other buffer end as they began. -/
theorem W2_keep (c : Dev nD) (b : Ref sig .tc) (hb : b ≠ main_v14) :
    W2 m ρ c (Proc.devRef .tc b) = W1 m ρ c (Proc.devRef .tc b) := by
  by_cases h : ∃ w, Pipeline.arrRef spec0 w = b
  · obtain ⟨w, rfl⟩ := h
    refine (W2_arr m ρ c w).trans ?_
    match w, hb with
    | ⟨4, _⟩, hb => exact absurd rfl hb
    | ⟨0, _⟩, _ | ⟨1, _⟩, _ | ⟨2, _⟩, _ | ⟨3, _⟩, _ =>
      exact ((dat0 (V1 m ρ) c).arrAt_in _ rfl _).trans (A_eq0 (V1 m ρ) c _)
  · exact W2_of_ne m ρ c b fun w e => h ⟨w, e⟩
theorem W8_keep (c : Dev nD) (b : Ref sig .tc) (hb : b ≠ main_v34) :
    W8 m ρ c (Proc.devRef .tc b) = W7 m ρ c (Proc.devRef .tc b) := by
  by_cases h : ∃ w, Pipeline.arrRef spec2 w = b
  · obtain ⟨w, rfl⟩ := h
    refine (W8_arr m ρ c w).trans ?_
    match w, hb with
    | ⟨4, _⟩, hb => exact absurd rfl hb
    | ⟨0, _⟩, _ | ⟨1, _⟩, _ | ⟨2, _⟩, _ | ⟨3, _⟩, _ =>
      exact ((dat2 (V7 m ρ) c).arrAt_in _ rfl _).trans (A_eq2 (V7 m ρ) c _)
  · exact W8_of_ne m ρ c b fun w e => h ⟨w, e⟩
theorem W14_keep (c : Dev nD) (b : Ref sig .tc) (hb : b ≠ main_v54) :
    W14 m ρ c (Proc.devRef .tc b) = W13 m ρ c (Proc.devRef .tc b) := by
  by_cases h : ∃ w, Pipeline.arrRef spec4 w = b
  · obtain ⟨w, rfl⟩ := h
    refine (W14_arr m ρ c w).trans ?_
    match w, hb with
    | ⟨4, _⟩, hb => exact absurd rfl hb
    | ⟨0, _⟩, _ | ⟨1, _⟩, _ | ⟨2, _⟩, _ | ⟨3, _⟩, _ =>
      exact ((dat4 (V13 m ρ) c).arrAt_in _ rfl _).trans (A_eq4 (V13 m ρ) c _)
  · exact W14_of_ne m ρ c b fun w e => h ⟨w, e⟩
/-- A buffer that no host stretch writes and that is no region's output array ends @main at its launch contents. -/
theorem W17_kept (c : Dev nD) (b : Ref sig .tc)
    (h : b ∉ hostOps0_W ∧ b ≠ main_v14 ∧ b ∉ hostOps1_W ∧ b ∉ hostOps1_1_W ∧ b ∉ hostOps1_2_W ∧ (∀ w, Pipeline.arrRef spec1 w ≠ b)
      ∧ b ∉ hostOps2_W ∧ b ≠ main_v34 ∧ b ∉ hostOps3_W ∧ b ∉ hostOps3_1_W ∧ b ∉ hostOps3_2_W ∧ (∀ w, Pipeline.arrRef spec3 w ≠ b)
      ∧ b ∉ hostOps4_W ∧ b ≠ main_v54 ∧ b ∉ hostOps5_W ∧ (∀ w, Pipeline.arrRef spec5 w ≠ b) ∧ b ∉ hostOps6_W) :
    W17 m ρ c (Proc.devRef .tc b) = m ((c : Thread nD τ).loc b) := by
  obtain ⟨h0, o0, h1, h11, h12, o1, h2, o2, h3, h31, h32, o3, h4, o4, h5, o5, h6⟩ := h
  exact (StableHlo.after_of_writes_sub hostOps6 (W16 m ρ c) hostOps6_writes h6).trans <| (W16_of_ne m ρ c b o5).trans <|
    (StableHlo.after_of_writes_sub hostOps5 (W14 m ρ c) hostOps5_writes h5).trans <| (W14_keep m ρ c b o4).trans <|
    (StableHlo.after_of_writes_sub hostOps4 (W12 m ρ c) hostOps4_writes h4).trans <| (W12_of_ne m ρ c b o3).trans <|
    (StableHlo.after_of_writes_sub hostOps3_2 (W10 m ρ c) hostOps3_2_writes h32).trans <| (StableHlo.after_of_writes_sub hostOps3_1 (W9 m ρ c) hostOps3_1_writes h31).trans <|
    (StableHlo.after_of_writes_sub hostOps3 (W8 m ρ c) hostOps3_writes h3).trans <| (W8_keep m ρ c b o2).trans <|
    (StableHlo.after_of_writes_sub hostOps2 (W6 m ρ c) hostOps2_writes h2).trans <| (W6_of_ne m ρ c b o1).trans <|
    (StableHlo.after_of_writes_sub hostOps1_2 (W4 m ρ c) hostOps1_2_writes h12).trans <| (StableHlo.after_of_writes_sub hostOps1_1 (W3 m ρ c) hostOps1_1_writes h11).trans <|
    (StableHlo.after_of_writes_sub hostOps1 (W2 m ρ c) hostOps1_writes h1).trans <| (W2_keep m ρ c b o0).trans (StableHlo.after_of_writes_sub hostOps0 (W0 m ρ c) hostOps0_writes h0)
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
  | ⟨2, _⟩ => fun c => dat2 (V7 m ρ) c
  | ⟨3, _⟩ => fun c => dat3 (V11 m ρ) c
  | ⟨4, _⟩ => fun c => dat4 (V13 m ρ) c
  | ⟨5, _⟩ => fun c => dat5 (V15 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W17 m ρ c) ∗ ∃ r, prngReg c r)
theorem hlast (c : Dev nD) :
    iprop(StableHlo.held (c : Thread nD τ) (Pipeline.ucRefs τ sig) (W17 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO
/-- Entering a region splits its arrays off the other buffers. -/
theorem entry_of (c : Dev nD) {Hub A Z Pf O S : sProp 𝕄} (hsplit : Hub ⊢ iprop(A ∗ Z)) (hPf : (BI.emp : sProp 𝕄) ⊢ Pf)
    (hO : iprop(∃ W, owes (c : Thread nD τ) (0 : CellTallies nD τ sig Unit) W) ⊢ O) :
    iprop((Hub ∗ R (F := F) c) ∗ S) ⊢ |={Set.univ}=> iprop(A ∗ Pf ∗ O ∗ (∃ r, prngReg c r) ∗ Z) := by
  iintro ⟨⟨Hb, Hp, HO⟩, -⟩
  ihave H := hsplit $$ Hb
  icases H with ⟨Ha, Hrest⟩
  imodintro
  isplitl [Ha]; · iexact Ha
  isplitr; · iapply hPf; iempintro
  isplitl [HO]; · iapply hO; iexact HO
  isplitl [Hp]; · iexact Hp
  iexact Hrest
/-- Leaving a region puts its arrays, at their final contents, back among the other buffers. -/
theorem exit_of (c : Dev nD) {A Z Hub O : sProp 𝕄} (hjoin : iprop(A ∗ Z) ⊢ Hub)
    (hO : O ⊢ iprop(∃ W, owes (c : Thread nD τ) (0 : CellTallies nD τ sig Unit) W)) :
    iprop(A ∗ O ∗ (∃ r, prngReg c r) ∗ Z) ⊢ |={Set.univ}=> iprop(Hub ∗ R (F := F) c) := by
  iintro ⟨Ha, HO, HY, Hrest⟩
  imodintro
  isplitl [Ha Hrest]
  · iapply hjoin; isplitl [Ha] <;> iassumption
  isplitl [HY]; · iexact HY
  iapply hO; iexact HO
theorem in_of (X Pf S : sProp 𝕄) : iprop(X ∗ Pf ∗ S) ⊢ iprop(S ∗ X) := by
  iintro ⟨Hp, -, Hr⟩
  isplitl [Hr]; · iexact Hr
  iexact Hp
theorem out_of (S X : sProp 𝕄) : iprop(S ∗ X) ⊢ iprop(X ∗ (BI.emp : sProp 𝕄) ∗ S) := by
  iintro ⟨Hr, Hp⟩
  isplitl [Hp]; · iexact Hp
  isplitr; · iempintro
  iexact Hr
theorem owes_in {cfg : Pipeline.Cfg sig Λ₀} {c : Dev nD} (dat : Dat τ (Elt F) Unit ℕ (UR sig nD τ) ℕ cfg c) (t : Fin (cfg.N + 1))
    (h0 : dat.owed t = 0) (hr : dat.recorded t = Set.univ) :
    iprop(∃ W, owes (c : Thread nD τ) (0 : CellTallies nD τ sig Unit) W) ⊢ (dat.owesAt () t : sProp 𝕄) := by
  unfold Pipeline.Dat.owesAt Pipeline.owesWithin Pipeline.Dat.bound; rw [h0, hr]
  iintro ⟨%W, HO⟩; iexists W; isplitr; · ipureintro; exact fun _ _ => Or.inl trivial
  iexact HO
theorem owes_out {cfg : Pipeline.Cfg sig Λ₀} {c : Dev nD} (dat : Dat τ (Elt F) Unit ℕ (UR sig nD τ) ℕ cfg c) (t : Fin (cfg.N + 1))
    (h0 : dat.owed t = 0) :
    (dat.owesAt () t : sProp 𝕄) ⊢ iprop(∃ W, owes (c : Thread nD τ) (0 : CellTallies nD τ sig Unit) W) := by
  unfold Pipeline.Dat.owesAt Pipeline.owesWithin; rw [h0]
  iintro ⟨%W, -, HO⟩; iexists W; iexact HO
set_option backward.isDefEq.respectTransparency.types false in
/-- A kernel region over the held buffers: entered at the contents `Win`, left at `Wout`, which differ at its arrays only. -/
def mkReg (p : Fin 6) (hw : Pipeline.WinFacts (Pipeline.pin (pcfgs (F := F)) adm p).spec) (hbp : ∀ w : Fin (Pipeline.pin (pcfgs (F := F)) adm p).W, 0 < ((Pipeline.pin (pcfgs (F := F)) adm p).spec w).block.numel)
    (hsw : ∀ (w : Fin (Pipeline.pin (pcfgs (F := F)) adm p).W) (s : Fin ((Pipeline.pin (pcfgs (F := F)) adm p).spec w).nbuf), (((Pipeline.pin (pcfgs (F := F)) adm p).spec w).stage s).IsWhole)
    (haw : ∀ w, ((Pipeline.pin (pcfgs (F := F)) adm p).spec w).arr.IsWhole)
    (Win Wout : Dev nD → Valuation τ sig (Elt F))
    (hbody : ∀ c, Pipeline.BodyObligationLoose (pdats m ρ p c) defs₀ 𝒱₀ () Set.univ)
    (howed : ∀ c t, (pdats m ρ p c).owed t = 0) (hrec : ∀ c t, (pdats m ρ p c).recorded t = Set.univ)
    (hq : ∀ c w, (pdats m ρ p c).q w = fullShare) (hK : (pcfgs (F := F) p).pre.K = 0)
    (hA : ∀ c w, (pdats m ρ p c).A w = Win c (Proc.devRef .tc (Pipeline.arrRef (Pipeline.pin (pcfgs (F := F)) adm p).spec w)))
    (harr : ∀ c w, Wout c (Proc.devRef .tc (Pipeline.arrRef (Pipeline.pin (pcfgs (F := F)) adm p).spec w)) = (pdats m ρ p c).arrAt w (Pipeline.pin (pcfgs (F := F)) adm p).N)
    (hne : ∀ c (b : Ref sig .tc), (∀ w, Pipeline.arrRef (Pipeline.pin (pcfgs (F := F)) adm p).spec w ≠ b) → Wout c (Proc.devRef .tc b) = Win c (Proc.devRef .tc b))
    (hin : ∀ c, (Pipeline.ΦA (Pipeline.pin (pcfgs (F := F)) adm p).spec c : sProp 𝕄) ⊢ (pdats m ρ p c).Φ 0)
    (hout : ∀ c, (pdats m ρ p c).Φ (Fin.last _) ⊢ (Pipeline.ΦA (Pipeline.pin (pcfgs (F := F)) adm p).spec c : sProp 𝕄)) :
    Pipeline.RegionSeg (pcfgs (F := F)) adm (pdats m ρ) () defs₀ 𝒱₀ L lv p where
  win := hw.to₀
  block_pos := hbp
  stage_whole := hsw
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Win c b)
  hentry c := by
    rw [Pipeline.ownSems0_none]
    have hsplit := Pipeline.arrays_of_unscopedBufs (p := p) (pcfgs (F := F)) adm (pdats m ρ) hw haw c
      ((pdats m ρ p c).share_full (hq c)) (fun b => Win c b) (hA c)
    rw [Pipeline.unscopedBufs_held] at hsplit
    exact entry_of c hsplit (by
        unfold Pipeline.prefHeld
        haveI : IsEmpty (Fin (pcfgs (F := F) p).pre.K) := by rw [hK]; infer_instance
        rw [Finset.univ_eq_empty, BI.bigSep_empty])
      (owes_in _ 0 (howed c 0) (hrec c 0))
  hin c := (in_of _ _ _).trans (hin c)
  hout c := by rw [Pipeline.ownSems0_none]; exact (hout c).trans (out_of _ _)
  hexit c := by
    have hjoin := Pipeline.unscopedBufs_of_arrays (p := p) (pcfgs (F := F)) adm (Ix := Unit) (Name := ℕ) (U := UR sig nD τ) (Lvl := ℕ)
      hw haw c (pdats m ρ) ((pdats m ρ p c).share_full (hq c))
      (fun b => Win c b) (fun b => Wout c b) ((pdats m ρ p c).arrAt · (Pipeline.pin (pcfgs (F := F)) adm p).N) (fun w => (harr c w).symm) (fun b hb => hne c b (not_image hb))
    rw [Pipeline.unscopedBufs_held] at hjoin
    exact exit_of c hjoin (owes_out _ _ (howed c _))
set_option backward.isDefEq.respectTransparency.types false in
def reg0 : Pipeline.RegionSeg (pcfgs (F := F)) adm (pdats m ρ) () defs₀ 𝒱₀ L lv 0 :=
  mkReg m ρ 0 launch0.win launch0.block_pos launch0.stage_whole launch0.arr_whole (W1 m ρ) (W2 m ρ) (fun c => (body_obligation0 (V1 m ρ) c).loose) (fun _ _ => rfl) (fun _ _ => rfl)
    (fun _ _ => rfl) rfl (A_eq0 (V1 m ρ)) (W2_arr m ρ) (W2_of_ne m ρ) (fun _ => .rfl) (fun _ => .rfl)
set_option backward.isDefEq.respectTransparency.types false in
def reg1 : Pipeline.RegionSeg (pcfgs (F := F)) adm (pdats m ρ) () defs₀ 𝒱₀ L lv 1 :=
  mkReg m ρ 1 launch1.win launch1.block_pos launch1.stage_whole launch1.arr_whole (W5 m ρ) (W6 m ρ) (fun c => (body_obligation1 (V5 m ρ) c).loose) (fun _ _ => rfl) (fun _ _ => rfl)
    (fun _ _ => rfl) rfl (A_eq1 (V5 m ρ)) (W6_arr m ρ) (W6_of_ne m ρ) (fun _ => .rfl) (fun _ => .rfl)
set_option backward.isDefEq.respectTransparency.types false in
def reg2 : Pipeline.RegionSeg (pcfgs (F := F)) adm (pdats m ρ) () defs₀ 𝒱₀ L lv 2 :=
  mkReg m ρ 2 launch2.win launch2.block_pos launch2.stage_whole launch2.arr_whole (W7 m ρ) (W8 m ρ) (fun c => (body_obligation2 (V7 m ρ) c).loose) (fun _ _ => rfl) (fun _ _ => rfl)
    (fun _ _ => rfl) rfl (A_eq2 (V7 m ρ)) (W8_arr m ρ) (W8_of_ne m ρ) (fun _ => .rfl) (fun _ => .rfl)
set_option backward.isDefEq.respectTransparency.types false in
def reg3 : Pipeline.RegionSeg (pcfgs (F := F)) adm (pdats m ρ) () defs₀ 𝒱₀ L lv 3 :=
  mkReg m ρ 3 launch3.win launch3.block_pos launch3.stage_whole launch3.arr_whole (W11 m ρ) (W12 m ρ) (fun c => (body_obligation3 (V11 m ρ) c).loose) (fun _ _ => rfl) (fun _ _ => rfl)
    (fun _ _ => rfl) rfl (A_eq3 (V11 m ρ)) (W12_arr m ρ) (W12_of_ne m ρ) (fun _ => .rfl) (fun _ => .rfl)
set_option backward.isDefEq.respectTransparency.types false in
def reg4 : Pipeline.RegionSeg (pcfgs (F := F)) adm (pdats m ρ) () defs₀ 𝒱₀ L lv 4 :=
  mkReg m ρ 4 launch4.win launch4.block_pos launch4.stage_whole launch4.arr_whole (W13 m ρ) (W14 m ρ) (fun c => (body_obligation4 (V13 m ρ) c).loose) (fun _ _ => rfl) (fun _ _ => rfl)
    (fun _ _ => rfl) rfl (A_eq4 (V13 m ρ)) (W14_arr m ρ) (W14_of_ne m ρ) (fun _ => .rfl) (fun _ => .rfl)
set_option backward.isDefEq.respectTransparency.types false in
def reg5 : Pipeline.RegionSeg (pcfgs (F := F)) adm (pdats m ρ) () defs₀ 𝒱₀ L lv 5 :=
  mkReg m ρ 5 launch5.win launch5.block_pos launch5.stage_whole launch5.arr_whole (W15 m ρ) (W16 m ρ) (fun c => (body_obligation5 (V15 m ρ) c).loose) (fun _ _ => rfl) (fun _ _ => rfl)
    (fun _ _ => rfl) rfl (A_eq5 (V15 m ρ)) (W16_arr m ρ) (W16_of_ne m ρ) (hin5 (V15 m ρ)) (hout5 (V15 m ρ))
abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .host (hseg hostOps3_1 hostOps3_1_sub hostOps3_1_fresh (W9 m ρ)),
    .host (hseg hostOps3_2 hostOps3_2_sub hostOps3_2_fresh (W10 m ρ)),
    .region (reg3 m ρ),
    .host (hseg hostOps4 hostOps4_sub hostOps4_fresh (W12 m ρ)),
    .region (reg4 m ρ),
    .host (hseg hostOps5 hostOps5_sub hostOps5_fresh (W14 m ρ)),
    .region (reg5 m ρ),
    .host (hseg hostOps6 hostOps6_sub hostOps6_fresh (W16 m ρ)) ]
set_option backward.isDefEq.respectTransparency.types false in
/-- Every weakly fair execution of @main terminates without a fault, each buffer ending at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W17 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h => h)
end Cert.KernelIdeal.Hand
end
-- ==== Proof.KI.MlpRow.lean ====
import Idealize.ShloMosaic.Lib.StackMember
import Idealize.ShloMosaic.Lib.KernelVsHost
import Idealize.ShloMosaic.Lib.ValueIdx
import Idealize.ShloMosaic.Lib.Pipeline.Value

noncomputable section

namespace Cert.KernelIdeal.Hand.MlpRow

open Idealize.ShloMosaic Idealize.ShloMosaic.ValueIdx Idealize.ShloMosaic.StackMember
open scoped BigOperators

abbrev zf : EReal := Ideal.ofBits .f32 0x00000000#32

/-- Entry `q` of a row before the last rectifier: `∑ⱼ max (∑ₖ (x k + a k) · w1 k j) 0 · w2 j`. -/
def mlpPre {k h : Nat} (x a : Fin k → EReal) (w1 : Fin k → Fin h → EReal) (w2 : Fin h → EReal) : EReal :=
  ∑ j : Fin h, max (∑ c : Fin k, (x c + a c) * w1 c j) zf * w2 j

theorem mlpPre_congr {k h : Nat} {x x' a a' : Fin k → EReal} {w1 w1' : Fin k → Fin h → EReal} {w2 w2' : Fin h → EReal}
    (hx : ∀ c, x c = x' c) (ha : ∀ c, a c = a' c) (h1 : ∀ c j, w1 c j = w1' c j) (h2 : ∀ j, w2 j = w2' j) :
    mlpPre x a w1 w2 = mlpPre x' a' w1' w2' := by
  rw [funext hx, funext ha, funext fun c => funext (h1 c), funext h2]

theorem dotGeneral_rows_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (r : Fin m) (q : Fin n) :
    Host.dotGeneral d prec A B (ix2 r q) = ∑ c : Fin k, A (ix2 r c) * B (ix2 c q) := by
  subst hd
  exact dotGeneral_plain_apply prec A B r q

theorem matmul_rows_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (r : Fin m) (q : Fin n) :
    matmul d prec A B (constant ⟨2, ![m, n]⟩ .f32 0x00000000#32) (ix2 r q) = ∑ c : Fin k, A (ix2 r c) * B (ix2 c q) := by
  rw [matmul_zero_eq_dotGeneral]
  exact dotGeneral_rows_apply d hd prec A B r q

/-- A row of a product depends on that row of the left factor alone: entry (r, q) is `mlpPre` of row `r`. -/
theorem host_pre_apply {m k h n : Nat} (d1 : DotDims ⟨2, ![m, k]⟩ ⟨2, ![k, h]⟩ ⟨2, ![m, h]⟩) (hd1 : d1 = DotDims.plain m k h)
    (d2 : DotDims ⟨2, ![m, h]⟩ ⟨2, ![h, n]⟩ ⟨2, ![m, n]⟩) (hd2 : d2 = DotDims.plain m h n)
    (x a : FVec Ideal ⟨2, ![m, k]⟩ .f32) (w1 : FVec Ideal ⟨2, ![k, h]⟩ .f32) (w2 : FVec Ideal ⟨2, ![h, n]⟩ .f32)
    (z : FVec Ideal ⟨2, ![m, h]⟩ .f32) (hz : ∀ i, z i = zf) (r : Fin m) (q : Fin n) :
    Host.dotGeneral d2 none (maximumf (Host.dotGeneral d1 none (addf x a) w1) z) w2 (ix2 r q)
      = mlpPre (fun c => x (ix2 r c)) (fun c => a (ix2 r c)) (fun c j => w1 (ix2 c j)) (fun j => w2 (ix2 j q)) := by
  rw [dotGeneral_rows_apply d2 hd2]
  unfold mlpPre
  refine Finset.sum_congr rfl fun j _ => ?_
  rw [maximumf_apply, hz, dotGeneral_rows_apply d1 hd1]
  rfl

theorem unit_pre_apply {m k h n : Nat} (d1 : DotDims ⟨2, ![m, k]⟩ ⟨2, ![k, h]⟩ ⟨2, ![m, h]⟩) (hd1 : d1 = DotDims.plain m k h)
    (d2 : DotDims ⟨2, ![m, h]⟩ ⟨2, ![h, n]⟩ ⟨2, ![m, n]⟩) (hd2 : d2 = DotDims.plain m h n)
    (x a : FVec Ideal ⟨2, ![m, k]⟩ .f32) (w1 : FVec Ideal ⟨2, ![k, h]⟩ .f32) (w2 : FVec Ideal ⟨2, ![h, n]⟩ .f32)
    (z : FVec Ideal ⟨2, ![m, h]⟩ .f32) (hz : ∀ i, z i = zf) (hb : FTy.bf16.bits < FTy.f32.bits) (p : Fin m) (q : Fin n) :
    matmul d2 none (truncf .bf16 (maximumf (matmul d1 none (truncf .bf16 (addf x a) hb) (truncf .bf16 w1 hb)
        (constant ⟨2, ![m, h]⟩ .f32 0x00000000#32)) z) hb) (truncf .bf16 w2 hb) (constant ⟨2, ![m, n]⟩ .f32 0x00000000#32) (ix2 p q)
      = mlpPre (fun c => x (ix2 p c)) (fun c => a (ix2 p c)) (fun c j => w1 (ix2 c j)) (fun j => w2 (ix2 j q)) := by
  rw [matmul_rows_apply d2 hd2]
  unfold mlpPre
  refine Finset.sum_congr rfl fun j _ => ?_
  rw [truncf_apply, truncf_apply, maximumf_apply, hz, matmul_rows_apply d1 hd1]
  rfl

end Cert.KernelIdeal.Hand.MlpRow

namespace Cert.KernelIdeal.Hand

open Idealize.ShloMosaic Idealize.ShloMosaic.Pipeline

theorem hz : (![0, 0] : Fin 2 → Nat) = fun _ => 0 := funext fun a => by fin_cases a <;> rfl

/-- An element of a window's block at a point sits in the array, axis by axis, at the block index times the block size plus its own coordinate. -/
theorem emb_eq {sig : RefSig} {G : Grid} (w : Window sig G) (t : Fin G.N) (y : (w.xblock (G.coords t)).Idx) (i : w.shape.Idx)
    (h : ∀ a, w.index t a * w.size a + (y a).val = (i a).val) : (w.rect t).emb y = i :=
  funext fun a => Fin.ext ((w.rect_emb_val t y a).trans (h a))

theorem off_row {i b B p r : Nat} (e : i = b) (hr : r = B * b + p) : i * B + p = r := by
  subst e hr; exact congrArg (· + p) (Nat.mul_comm _ _)

theorem off_zero {i B k : Nat} (e : i = 0) : i * B + k = k := by subst e; omega

/-- Row `n` lies in the block of `B` rows whose index is `n / B`. -/
theorem row_mem {i B n : Nat} (hB : 0 < B) (e : i = n / B) : i * B ≤ n ∧ n < i * B + B := by
  subst e
  have h1 := Nat.div_add_mod n B
  have h2 := Nat.mod_lt n hB
  rw [Nat.mul_comm (n / B) B]
  omega

theorem col_mem {i C k : Nat} (e : i = 0) (hk : k < C) : i * C ≤ k ∧ k < i * C + C := by subst e; omega

end Cert.KernelIdeal.Hand

end
-- ==== Proof.Ref.Stages.lean ====
import proofs.«428498_j27358941675990_1_alg».proof.ReferenceIdeal
import proofs.«428498_j27358941675990_1_alg».proof.Proof.Gen.ReferenceIdeal

noncomputable section

namespace Cert.ReferenceIdeal.Hand

open Idealize.ShloMosaic Idealize.SL.Sem Cert.ReferenceIdeal
open Cert.ReferenceIdeal.Facts₀ Cert.ReferenceIdeal.Facts

variable {F : FTy → Type} [FloatOps F]

abbrev Arr (F : FTy → Type) [FloatOps F] (s : Shape) (e : EltTy) : Type := (⟨s, e⟩ : BufTy).Contents (Elt F)

def edgeRow0 (ei : Arr F S2x800000 .i32) : Arr F S800000 .i32 :=
  shapeCast S800000 (extractStridedSlice S1x800000 ![0, 0] ei slices_S2x800000_S1x800000_0_0) shapeCasts_S1x800000_S800000

def edgeRow1 (ei : Arr F S2x800000 .i32) : Arr F S800000 .i32 :=
  shapeCast S800000 (extractStridedSlice S1x800000 ![1, 0] ei slices_S2x800000_S1x800000_1_0) shapeCasts_S1x800000_S800000

def srcIdxOf (s : Arr F S800000 .i32) : Arr F S800000x1 .i32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

def dstIdxOf (d : Arr F S800000 .i32) : Arr F S800000x1 .i32 :=
  broadcastInDim S800000x1 ![0] bcast_S800000_S800000x1_0 d

def agg128of (x : Arr F S50000x128 .f32) (s d : Arr F S800000 .i32) : Arr F S50000x128 .f32 :=
  Host.scatterAdd scatter_S50000x128_S800000x1_S800000x128_1_0_0_1
    (broadcastInDim S50000x128 ![] bcast_S_S50000x128 (constant S_ .f32 0x00000000#32 : Arr F S_ .f32))
    (dstIdxOf d)
    (Host.gather gather_S50000x128_S800000x1_S800000x128_1_0_n_n_0_1_1128 x (srcIdxOf s))

def agg256of (h : Arr F S50000x256 .f32) (s d : Arr F S800000 .i32) : Arr F S50000x256 .f32 :=
  Host.scatterAdd scatter_S50000x256_S800000x1_S800000x256_1_0_0_1
    (broadcastInDim S50000x256 ![] bcast_S_S50000x256 (constant S_ .f32 0x00000000#32 : Arr F S_ .f32))
    (dstIdxOf d)
    (Host.gather gather_S50000x256_S800000x1_S800000x256_1_0_n_n_0_1_1256 h (srcIdxOf s))

def agg128 (x : Arr F S50000x128 .f32) (ei : Arr F S2x800000 .i32) : Arr F S50000x128 .f32 :=
  agg128of x (edgeRow0 ei) (edgeRow1 ei)

def agg256 (h : Arr F S50000x256 .f32) (ei : Arr F S2x800000 .i32) : Arr F S50000x256 .f32 :=
  agg256of h (edgeRow0 ei) (edgeRow1 ei)

def relu (a : Arr F S50000x256 .f32) : Arr F S50000x256 .f32 :=
  maximumf a (broadcastInDim S50000x256 ![] bcast_S_S50000x256 (constant S_ .f32 0x00000000#32 : Arr F S_ .f32))

def mlp128 (x agg : Arr F S50000x128 .f32) (w1 : Arr F S128x256 .f32) (w2 : Arr F S256x256 .f32) : Arr F S50000x256 .f32 :=
  relu (Host.dotGeneral dot_S50000x256_S256x256_S50000x256_1_0_0_1_n_n none
    (relu (Host.dotGeneral dot_S50000x128_S128x256_S50000x256_1_0_0_1_n_n none (addf x agg) w1)) w2)

def mlp256nr (h agg : Arr F S50000x256 .f32) (w1 w2 : Arr F S256x256 .f32) : Arr F S50000x256 .f32 :=
  Host.dotGeneral dot_S50000x256_S256x256_S50000x256_1_0_0_1_n_n none
    (relu (Host.dotGeneral dot_S50000x256_S256x256_S50000x256_1_0_0_1_n_n none (addf h agg) w1)) w2

def mlp256 (h agg : Arr F S50000x256 .f32) (w1 w2 : Arr F S256x256 .f32) : Arr F S50000x256 .f32 :=
  relu (mlp256nr h agg w1 w2)

def mean256 (a : Arr F S50000x256 .f32) : Arr F S256 .f32 :=
  Host.divf (Host.reduceAdd a (constant S_ .f32 0x00000000#32 : Arr F S_ .f32) reducesTo_S50000x256_S256_d0 h_S_)
    (broadcastInDim S256 ![] bcast_S_S256 (constant S_ .f32 0x47435000#32 : Arr F S_ .f32))

def var256 (a : Arr F S50000x256 .f32) : Arr F S256 .f32 :=
  let mu : Arr F S1x256 .f32 :=
    Host.divf (broadcastInDim S1x256 ![1] bcast_S256_S1x256_1
        (Host.reduceAdd a (constant S_ .f32 0x00000000#32 : Arr F S_ .f32) reducesTo_S50000x256_S256_d0 h_S_))
      (broadcastInDim S1x256 ![] bcast_S_S1x256 (constant S_ .f32 0x47435000#32 : Arr F S_ .f32))
  let dev : Arr F S50000x256 .f32 := subf a (broadcastInDim S50000x256 ![0, 1] bcast_S1x256_S50000x256_0_1 mu)
  let n : Arr F S_ .f32 := subf (constant S_ .f32 0x47435000#32 : Arr F S_ .f32) (sitofp .f32 (constantI S_ 32 0#32))
  select (broadcastInDim S256 ![] bcast_S_S256 (cmpf .ogt n (constant S_ .f32 0x00000000#32 : Arr F S_ .f32)))
    (Host.divf (Host.reduceAdd (mulf dev dev) (constant S_ .f32 0x00000000#32 : Arr F S_ .f32) reducesTo_S50000x256_S256_d0 h_S_)
      (broadcastInDim S256 ![] bcast_S_S256 n))
    (broadcastInDim S256 ![] bcast_S_S256 (id (constant S_ .f32 0x7FC00000#32 : Arr F S_ .f32)))

def rows (v : Arr F S256 .f32) : Arr F S50000x256 .f32 :=
  broadcastInDim S50000x256 ![0, 1] bcast_S1x256_S50000x256_0_1 (broadcastInDim S1x256 ![1] bcast_S256_S1x256_1 v)

def bnorm (a : Arr F S50000x256 .f32) (mean var gamma beta : Arr F S256 .f32) : Arr F S50000x256 .f32 :=
  addf (mulf (mulf (subf a (rows mean))
      (rows (Host.rsqrt (addf var (broadcastInDim S256 ![] bcast_S_S256 (constant S_ .f32 0x3727C5AC#32 : Arr F S_ .f32))))))
      (rows gamma)) (rows beta)

def rows2 (v : Arr F S1x256 .f32) : Arr F S50000x256 .f32 :=
  broadcastInDim S50000x256 ![0, 1] bcast_S1x256_S50000x256_0_1 v

def bnormK (a : Arr F S50000x256 .f32) (mean var gamma beta : Arr F S1x256 .f32) : Arr F S50000x256 .f32 :=
  addf (mulf (mulf (subf a (rows2 mean))
      (rows2 (Host.rsqrt (addf var (broadcastInDim S1x256 ![] bcast_S_S1x256 (constant S_ .f32 0x3727C5AC#32 : Arr F S_ .f32))))))
      (rows2 gamma)) (rows2 beta)

def poolK (h : Arr F S50000x256 .f32) (ids : Arr F S50000x1 .i32) : Arr F S256x256 .f32 :=
  Host.scatterAdd scatter_S256x256_S50000x1_S50000x256_1_0_0_1
    (broadcastInDim S256x256 ![] bcast_S_S256x256 (constant S_ .f32 0x00000000#32 : Arr F S_ .f32))
    ids h

def pool (h : Arr F S50000x256 .f32) (batch : Arr F S50000 .i32) : Arr F S256x256 .f32 :=
  poolK h (broadcastInDim S50000x1 ![0] bcast_S50000_S50000x1_0 batch)

def cat3 (a b c : Arr F S50000x256 .f32) : Arr F S50000x768 .f32 :=
  concatenate S50000x768 1 [⟨S50000x256, a⟩, ⟨S50000x256, b⟩, ⟨S50000x256, c⟩] concatenates_S50000x256_S50000x256_S50000x256_S50000x768_d1

def layer0 (x : Arr F S50000x128 .f32) (ei : Arr F S2x800000 .i32) (w1 : Arr F S128x256 .f32) (w2 : Arr F S256x256 .f32)
    (gamma beta : Arr F S256 .f32) : Arr F S50000x256 .f32 :=
  let a := mlp128 x (agg128 x ei) w1 w2
  bnorm a (mean256 a) (var256 a) gamma beta

def layer1 (h : Arr F S50000x256 .f32) (ei : Arr F S2x800000 .i32) (w1 w2 : Arr F S256x256 .f32)
    (gamma beta : Arr F S256 .f32) : Arr F S50000x256 .f32 :=
  let a := mlp256 h (agg256 h ei) w1 w2
  bnorm a (mean256 a) (var256 a) gamma beta

def layer2 (h : Arr F S50000x256 .f32) (ei : Arr F S2x800000 .i32) (w1 w2 : Arr F S256x256 .f32) : Arr F S50000x256 .f32 :=
  mlp256nr h (agg256 h ei) w1 w2

def out0 (x : Arr F S50000x128 .f32) (ei : Arr F S2x800000 .i32) (batch : Arr F S50000 .i32)
    (w10 : Arr F S128x256 .f32) (w20 : Arr F S256x256 .f32) (g0 b0 : Arr F S256 .f32)
    (w11 w21 : Arr F S256x256 .f32) (g1 b1 : Arr F S256 .f32) (w12 w22 : Arr F S256x256 .f32) : Arr F S256x256 .f32 :=
  let h0 := layer0 x ei w10 w20 g0 b0
  let h1 := layer1 h0 ei w11 w21 g1 b1
  pool (layer2 h1 ei w12 w22) batch

def out1 (x : Arr F S50000x128 .f32) (ei : Arr F S2x800000 .i32) (batch : Arr F S50000 .i32)
    (w10 : Arr F S128x256 .f32) (w20 : Arr F S256x256 .f32) (g0 b0 : Arr F S256 .f32)
    (w11 w21 : Arr F S256x256 .f32) (g1 b1 : Arr F S256 .f32) (w12 w22 : Arr F S256x256 .f32) : Arr F S50000x768 .f32 :=
  let h0 := layer0 x ei w10 w20 g0 b0
  let h1 := layer1 h0 ei w11 w21 g1 b1
  cat3 h0 h1 (layer2 h1 ei w12 w22)

end Cert.ReferenceIdeal.Hand

end
-- ==== Proof.KI.Val0.lean ====
import proofs.«428498_j27358941675990_1_alg».proof.Proof.KI.R0
import proofs.«428498_j27358941675990_1_alg».proof.Proof.KI.MlpRow
import proofs.«428498_j27358941675990_1_alg».proof.Proof.Ref.Stages
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open MlpRow
open Cert.ReferenceIdeal.Hand (mlp128)

namespace Val0

theorem ref_apply (x agg : Vec Ideal Cert.ReferenceIdeal.S50000x128 .f32) (w1 : Vec Ideal Cert.ReferenceIdeal.S128x256 .f32)
    (w2 : Vec Ideal Cert.ReferenceIdeal.S256x256 .f32) (r : Fin 50000) (q : Fin 256) :
    mlp128 (F := Ideal) x agg w1 w2 (ix2 r q)
      = max (mlpPre (fun c => x (ix2 r c)) (fun c => agg (ix2 r c)) (fun c j => w1 (ix2 c j)) (fun j => w2 (ix2 j q))) zf :=
  congrArg (max · zf) (host_pre_apply Cert.ReferenceIdeal.dot_S50000x128_S128x256_S50000x256_1_0_0_1_n_n rfl
    Cert.ReferenceIdeal.dot_S50000x256_S256x256_S50000x256_1_0_0_1_n_n rfl x agg w1 w2 _ (fun _ => rfl) r q)

theorem pay_apply (x0 x1 : Vec Ideal S2000x128 .f32) (x2 : Vec Ideal S128x256 .f32) (x3 : Vec Ideal S256x256 .f32) (p : Fin 2000) (q : Fin 256) :
    k0_pay1 (F := Ideal) x0 x1 x2 x3 (ix2 p q)
      = max (mlpPre (fun c => x0 (ix2 p c)) (fun c => x1 (ix2 p c)) (fun c j => x2 (ix2 c j)) (fun j => x3 (ix2 j q))) zf := by
  unfold k0_pay1
  simp only [shapeCast_self]
  exact congrArg (max · zf) (unit_pre_apply dot_S2000x128_S128x256_S2000x256_1_0_0_1_n_n rfl
    dot_S2000x256_S256x256_S2000x256_1_0_0_1_n_n rfl x0 x1 x2 x3 _ (fun _ => rfl) bitsLt_bf16_f32 p q)

/-- By evaluation at each of the 25 points. -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

end Val0

/-- Point `t` writes rows `2000·t …` of the output, each the reference's value of the same row; the 25 blocks cover the rows. -/
theorem final0 (V : (c : Dev nD) → (b : Ref sig .tc) → Buf (Elt Ideal) ((c : Thread nD τ).loc b)) (c : Dev nD) :
    (dat0 (F := Ideal) V c).arrAt 4 cfg0.N
      = Cert.ReferenceIdeal.Hand.mlp128 (F := Ideal) (V c main_arg0) (V c main_v13) (V c main_arg3) (V c main_arg4) := by
  have hN : cfg0.N = 25 := N_0
  refine (dat0 (F := Ideal) V c).arrAt_eq_of_cover 4 _ (fun t _ => ?_) fun i => ?_
  · obtain ⟨a0, a1, b0, b1, c0, c1, d0, d1, e0, e1⟩ := Val0.idx t
    show (cfg0.win 4).cut (grid0.coords t) ((dat0 V c).after 4 t) = _
    rw [after0_4]
    unfold out0_4
    rw [View.canon_unit_zero hz]
    simp only [View.ld_unit_zero (S := S2000x128) hz, View.ld_unit_zero (S := S128x256) hz, View.ld_unit_zero (S := S256x256) hz]
    funext y
    obtain ⟨p, q, rfl⟩ : ∃ (p : Fin 2000) (q : Fin 256), y = ix2 p q := ⟨y 0, y 1, eq_ix2 y⟩
    have ht : t.val < 25 := hN ▸ t.isLt
    obtain ⟨r, hr⟩ : ∃ r : Fin 50000, r.val = 2000 * t.val + p.val := ⟨⟨_, by have := p.isLt; omega⟩, rfl⟩
    show k0_pay1 (F := Ideal) (iblk0 V c 0 t) (iblk0 V c 1 t) (iblk0 V c 2 t) (iblk0 V c 3 t) (ix2 p q)
      = mlp128 (F := Ideal) (V c main_arg0) (V c main_v13) (V c main_arg3) (V c main_arg4) (((cfg0.win 4).blk t).view.emb (ix2 p q))
    rw [show ((cfg0.win 4).blk t).view.emb (ix2 p q) = ix2 r q from
      emb_eq win0_4 t (ix2 p q) (ix2 r q) (Fin.forall_fin_two.2 ⟨off_row e0 hr, off_zero e1⟩)]
    exact (Val0.pay_apply _ _ _ _ p q).trans ((congrArg (max · zf) (mlpPre_congr
      (fun k => congrArg (V c main_arg0) (emb_eq win0_0 t (ix2 p k) (ix2 r k) (Fin.forall_fin_two.2 ⟨off_row a0 hr, off_zero a1⟩)))
      (fun k => congrArg (V c main_v13) (emb_eq win0_1 t (ix2 p k) (ix2 r k) (Fin.forall_fin_two.2 ⟨off_row b0 hr, off_zero b1⟩)))
      (fun k j => congrArg (V c main_arg3) (emb_eq win0_2 t (ix2 k j) (ix2 k j) (Fin.forall_fin_two.2 ⟨off_zero c0, off_zero c1⟩)))
      (fun j => congrArg (V c main_arg4) (emb_eq win0_3 t (ix2 j q) (ix2 j q) (Fin.forall_fin_two.2 ⟨off_zero d0, off_zero d1⟩))))).trans
      (Val0.ref_apply _ _ _ _ r q).symm)
  · have hi0 : (i 0).val < 50000 := (i 0).isLt
    have hi1 : (i 1).val < 256 := (i 1).isLt
    obtain ⟨t, ht⟩ : ∃ t : Fin cfg0.N, t.val = (i 0).val / 2000 := ⟨⟨_, by omega⟩, rfl⟩
    obtain ⟨-, -, -, -, -, -, -, -, e0, e1⟩ := Val0.idx t
    refine ⟨t, flush0_4 t, ?_⟩
    show i ∈ ((View.whole main_v14).slice (win0_4.rect t)).set
    rw [View.set_slice_whole, Rect.mem_set_unit]
    exact Fin.forall_fin_two.2 ⟨row_mem (by decide) (e0.trans ht), col_mem e1 hi1⟩

end Cert.KernelIdeal.Hand

end
-- ==== Proof.Ref.Bn.lean ====
import proofs.«428498_j27358941675990_1_alg».proof.Proof.Ref.Stages
import Idealize.ShloMosaic.Lib.ValueLayout
import Idealize.ShloMosaic.Lib.IdealHost

noncomputable section

namespace Cert.ReferenceIdeal.Hand

open Idealize.ShloMosaic Idealize.SL.Sem Cert.ReferenceIdeal
open Cert.ReferenceIdeal.Facts₀ Cert.ReferenceIdeal.Facts
open Idealize.ShloMosaic.ValueIdx

variable {F : FTy → Type} [FloatOps F]

theorem shapeCast_row_eq {α : Type} (v : S256.Idx → α) (h : S256.ShapeCasts S1x256) :
    shapeCast S1x256 v h = broadcastInDim S1x256 ![1] bcast_S256_S1x256_1 v := by
  funext j
  obtain ⟨u, q, rfl⟩ : ∃ (u : Fin 1) (q : Fin 256), j = ix2 u q := ⟨j 0, j 1, eq_ix2 j⟩
  rw [shapeCast_a_1a_apply]
  exact (broadcastInDim_apply ![1] bcast_S256_S1x256_1 v (ix2 u q) (ix1 q) (fun a => by
    match a with
    | ⟨0, _⟩ => rfl)).symm

theorem rows2_shapeCast (v : Arr F S256 .f32) (h : S256.ShapeCasts S1x256) : rows2 (shapeCast S1x256 v h) = rows v := by
  unfold rows rows2
  rw [shapeCast_row_eq]

theorem rsqrt_eps_shapeCast (var : Arr F S256 .f32) (h : S256.ShapeCasts S1x256) :
    Host.rsqrt (addf (shapeCast S1x256 var h) (broadcastInDim S1x256 ![] bcast_S_S1x256 (constant S_ .f32 0x3727C5AC#32 : Arr F S_ .f32)))
      = shapeCast S1x256 (Host.rsqrt (addf var (broadcastInDim S256 ![] bcast_S_S256 (constant S_ .f32 0x3727C5AC#32 : Arr F S_ .f32)))) h := by
  funext j
  show FloatOps.hostUnary .rsqrt (FloatOps.addf _ (broadcastInDim _ _ _ _ j)) = FloatOps.hostUnary .rsqrt (FloatOps.addf _ (broadcastInDim S256 _ _ _ _))
  rw [broadcastInDim_scalar_apply, broadcastInDim_scalar_apply] <;> rfl

theorem bnormK_shapeCast (a : Arr F S50000x256 .f32) (mean var gamma beta : Arr F S256 .f32) (h : S256.ShapeCasts S1x256) :
    bnormK a (shapeCast S1x256 mean h) (shapeCast S1x256 var h) (shapeCast S1x256 gamma h) (shapeCast S1x256 beta h)
      = bnorm a mean var gamma beta := by
  unfold bnormK bnorm
  rw [rsqrt_eps_shapeCast, rows2_shapeCast, rows2_shapeCast, rows2_shapeCast, rows2_shapeCast]

theorem rows2_apply {α : Type} (v : S1x256.Idx → α) (r : Fin 50000) (q : Fin 256) :
    broadcastInDim S50000x256 ![0, 1] bcast_S1x256_S50000x256_0_1 v (ix2 r q) = v (ix2 (0 : Fin 1) q) :=
  broadcastInDim_apply ![0, 1] bcast_S1x256_S50000x256_0_1 v (ix2 r q) (ix2 (0 : Fin 1) q) (fun a => by
    match a with
    | ⟨0, _⟩ => rfl
    | ⟨1, _⟩ => rfl)

theorem bnormK_apply (a : Arr F S50000x256 .f32) (mean var gamma beta : Arr F S1x256 .f32) (r : Fin 50000) (q : Fin 256) :
    bnormK a mean var gamma beta (ix2 r q)
      = FloatOps.addf (FloatOps.mulf (FloatOps.mulf (FloatOps.subf (a (ix2 r q)) (mean (ix2 (0 : Fin 1) q)))
          (FloatOps.hostUnary .rsqrt (FloatOps.addf (var (ix2 (0 : Fin 1) q)) (FloatOps.ofBits .f32 0x3727C5AC#32))))
          (gamma (ix2 (0 : Fin 1) q))) (beta (ix2 (0 : Fin 1) q)) := by
  unfold bnormK rows2
  show FloatOps.addf (FloatOps.mulf (FloatOps.mulf (FloatOps.subf _ (broadcastInDim _ _ _ mean _)) (broadcastInDim _ _ _ (Host.rsqrt _) _))
    (broadcastInDim _ _ _ gamma _)) (broadcastInDim _ _ _ beta _) = _
  rw [rows2_apply, rows2_apply, rows2_apply, rows2_apply]
  show FloatOps.addf (FloatOps.mulf (FloatOps.mulf _ (FloatOps.hostUnary .rsqrt (FloatOps.addf _ (broadcastInDim _ _ _ _ _)))) _) _ = _
  rw [broadcastInDim_scalar_apply]
  rfl

end Cert.ReferenceIdeal.Hand

end
-- ==== Proof.KI.Val1.lean ====
import proofs.«428498_j27358941675990_1_alg».proof.Proof.KI.R1
import proofs.«428498_j27358941675990_1_alg».proof.Proof.KI.MlpRow
import proofs.«428498_j27358941675990_1_alg».proof.Proof.Ref.Stages
import proofs.«428498_j27358941675990_1_alg».proof.Proof.Ref.Bn
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.ReferenceIdeal.Hand (bnormK bnormK_apply)

theorem pay1_apply {F : FTy → Type} [FloatOps F] (x0 : Vec F S2000x256 .f32) (x1 x2 x3 x4 : Vec F S1x256 .f32) (p : Fin 2000) (q : Fin 256) :
    k1_pay1 x0 x1 x2 x3 x4 (ix2 p q)
      = FloatOps.addf (FloatOps.mulf (FloatOps.mulf (FloatOps.subf (x0 (ix2 p q)) (x1 (ix2 (0 : Fin 1) q)))
          (FloatOps.rsqrt (FloatOps.addf (x2 (ix2 (0 : Fin 1) q)) (FloatOps.ofBits .f32 0x3727C5AC#32))))
          (x3 (ix2 (0 : Fin 1) q))) (x4 (ix2 (0 : Fin 1) q)) := by
  unfold k1_pay1
  simp only [shapeCast_self]
  show FloatOps.addf (FloatOps.mulf (FloatOps.mulf (FloatOps.subf (x0 (ix2 p q))
      (broadcastTo S2000x256 x1 broadcasts_S1x256_S2000x256 (ix2 p q)))
      (broadcastTo S2000x256 (rsqrt (addf x2 (broadcast S1x256 (Scalar.ofBits .f32 0x3727C5AC#32)))) broadcasts_S1x256_S2000x256 (ix2 p q)))
      (broadcastTo S2000x256 x3 broadcasts_S1x256_S2000x256 (ix2 p q)))
      (broadcastTo S2000x256 x4 broadcasts_S1x256_S2000x256 (ix2 p q)) = _
  rw [broadcastTo_1b_ab_apply, broadcastTo_1b_ab_apply, broadcastTo_1b_ab_apply, broadcastTo_1b_ab_apply]
  rfl

/-- By evaluation at each of the 25 points. -/
theorem idx_facts1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

section
variable (V : (c : Dev nD) → (b : Ref sig .tc) → Buf (Elt Ideal) ((c : Thread nD τ).loc b)) (c : Dev nD)

/-- An entry of each block at point `t` is the array's entry at the block's offset plus its own coordinates. -/
theorem blk1 (t : Fin cfg1.N) (p : Fin 2000) (q : Fin 256) (r : Fin 50000) (hr : r.val = 2000 * t.val + p.val) :
    ((cfg1.win 5).blk t).view.emb (ix2 p q) = ix2 r q
    ∧ (iblk1 V c 0 t : Vec Ideal S2000x256 .f32) (ix2 p q) = V c main_v14 (ix2 r q)
    ∧ (iblk1 V c 1 t : Vec Ideal S1x256 .f32) (ix2 (0 : Fin 1) q) = V c main_v19 (ix2 (0 : Fin 1) q)
    ∧ (iblk1 V c 2 t : Vec Ideal S1x256 .f32) (ix2 (0 : Fin 1) q) = V c main_v20 (ix2 (0 : Fin 1) q)
    ∧ (iblk1 V c 3 t : Vec Ideal S1x256 .f32) (ix2 (0 : Fin 1) q) = V c main_v21 (ix2 (0 : Fin 1) q)
    ∧ (iblk1 V c 4 t : Vec Ideal S1x256 .f32) (ix2 (0 : Fin 1) q) = V c main_v22 (ix2 (0 : Fin 1) q) := by
  obtain ⟨a0, a1, f0, f1, b0, b1, c0, c1, d0, d1, e0, e1⟩ := idx_facts1 t
  exact ⟨emb_eq win1_5 t (ix2 p q) (ix2 r q) (Fin.forall_fin_two.2 ⟨off_row f0 hr, off_zero f1⟩),
    congrArg (V c main_v14) (emb_eq win1_0 t (ix2 p q) (ix2 r q) (Fin.forall_fin_two.2 ⟨off_row a0 hr, off_zero a1⟩)),
    congrArg (V c main_v19) (emb_eq win1_1 t (ix2 (0 : Fin 1) q) (ix2 (0 : Fin 1) q) (Fin.forall_fin_two.2 ⟨off_zero b0, off_zero b1⟩)),
    congrArg (V c main_v20) (emb_eq win1_2 t (ix2 (0 : Fin 1) q) (ix2 (0 : Fin 1) q) (Fin.forall_fin_two.2 ⟨off_zero c0, off_zero c1⟩)),
    congrArg (V c main_v21) (emb_eq win1_3 t (ix2 (0 : Fin 1) q) (ix2 (0 : Fin 1) q) (Fin.forall_fin_two.2 ⟨off_zero d0, off_zero d1⟩)),
    congrArg (V c main_v22) (emb_eq win1_4 t (ix2 (0 : Fin 1) q) (ix2 (0 : Fin 1) q) (Fin.forall_fin_two.2 ⟨off_zero e0, off_zero e1⟩))⟩

/-- Point `t` writes rows `2000·t …` of the output, each the normalisation of the same row. -/
theorem flushed1 (t : Fin cfg1.N) : (dat1 (F := Ideal) V c).flushed 5 t = ((cfg1.win 5).blk t).view.read (Elt Ideal)
    (bnormK (F := Ideal) (V c main_v14) (V c main_v19) (V c main_v20) (V c main_v21) (V c main_v22)) := by
  show (cfg1.win 5).cut (grid1.coords t) ((dat1 (F := Ideal) V c).after 5 t) = _
  rw [after1_5]
  unfold out1_5
  rw [View.canon_unit_zero hz]
  simp only [View.ld_unit_zero (S := S2000x256) hz, View.ld_unit_zero (S := S1x256) hz]
  funext j
  obtain ⟨p, q, rfl⟩ : ∃ (p : Fin 2000) (q : Fin 256), j = ix2 p q := ⟨j 0, j 1, eq_ix2 j⟩
  have ht : t.val < 25 := (N_1 : cfg1.N = 25) ▸ t.isLt
  obtain ⟨r, hr⟩ : ∃ r : Fin 50000, r.val = 2000 * t.val + p.val := ⟨⟨_, by have := p.isLt; omega⟩, rfl⟩
  rw [View.read_apply]
  show k1_pay1 (iblk1 V c 0 t) (iblk1 V c 1 t) (iblk1 V c 2 t) (iblk1 V c 3 t) (iblk1 V c 4 t) (ix2 p q)
    = bnormK (F := Ideal) (V c main_v14) (V c main_v19) (V c main_v20) (V c main_v21) (V c main_v22) (((cfg1.win 5).blk t).view.emb (ix2 p q))
  obtain ⟨h5, h0, h1, h2, h3, h4⟩ := blk1 V c t p q r hr
  rw [h5, pay1_apply, bnormK_apply, h0, h1, h2, h3, h4]
  rfl

/-- The 25 blocks of 2000 rows cover the output, so it ends holding the normalisation. -/
theorem final1 : (dat1 (F := Ideal) V c).arrAt 5 cfg1.N
    = Cert.ReferenceIdeal.Hand.bnormK (F := Ideal) (V c main_v14) (V c main_v19) (V c main_v20) (V c main_v21) (V c main_v22) := by
  refine (dat1 (F := Ideal) V c).arrAt_eq_of_cover 5 _ (fun t _ => flushed1 V c t) fun i => ?_
  · have hN : cfg1.N = 25 := N_1
    have hi0 : (i 0).val < 50000 := (i 0).isLt
    have hi1 : (i 1).val < 256 := (i 1).isLt
    obtain ⟨t, ht⟩ : ∃ t : Fin cfg1.N, t.val = (i 0).val / 2000 := ⟨⟨_, by omega⟩, rfl⟩
    obtain ⟨-, -, e0, e1, -⟩ := idx_facts1 t
    refine ⟨t, flush1_5 t, ?_⟩
    show i ∈ ((View.whole main_v23).slice (win1_5.rect t)).set
    rw [View.set_slice_whole, Rect.mem_set_unit]
    exact Fin.forall_fin_two.2 ⟨row_mem (by decide) (e0.trans ht), col_mem e1 hi1⟩

end

end Cert.KernelIdeal.Hand

end
-- ==== Proof.KI.Val2.lean ====
import proofs.«428498_j27358941675990_1_alg».proof.Proof.KI.R2
import proofs.«428498_j27358941675990_1_alg».proof.Proof.KI.MlpRow
import proofs.«428498_j27358941675990_1_alg».proof.Proof.Ref.Stages
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open MlpRow
open Cert.ReferenceIdeal.Hand (mlp256)

namespace Val2

theorem ref_apply (x agg : Vec Ideal Cert.ReferenceIdeal.S50000x256 .f32) (w1 : Vec Ideal Cert.ReferenceIdeal.S256x256 .f32)
    (w2 : Vec Ideal Cert.ReferenceIdeal.S256x256 .f32) (r : Fin 50000) (q : Fin 256) :
    mlp256 (F := Ideal) x agg w1 w2 (ix2 r q)
      = max (mlpPre (fun c => x (ix2 r c)) (fun c => agg (ix2 r c)) (fun c j => w1 (ix2 c j)) (fun j => w2 (ix2 j q))) zf :=
  congrArg (max · zf) (host_pre_apply Cert.ReferenceIdeal.dot_S50000x256_S256x256_S50000x256_1_0_0_1_n_n rfl
    Cert.ReferenceIdeal.dot_S50000x256_S256x256_S50000x256_1_0_0_1_n_n rfl x agg w1 w2 _ (fun _ => rfl) r q)

theorem pay_apply (x0 x1 : Vec Ideal S2000x256 .f32) (x2 : Vec Ideal S256x256 .f32) (x3 : Vec Ideal S256x256 .f32) (p : Fin 2000) (q : Fin 256) :
    k2_pay1 (F := Ideal) x0 x1 x2 x3 (ix2 p q)
      = max (mlpPre (fun c => x0 (ix2 p c)) (fun c => x1 (ix2 p c)) (fun c j => x2 (ix2 c j)) (fun j => x3 (ix2 j q))) zf := by
  unfold k2_pay1
  simp only [shapeCast_self]
  exact congrArg (max · zf) (unit_pre_apply dot_S2000x256_S256x256_S2000x256_1_0_0_1_n_n rfl
    dot_S2000x256_S256x256_S2000x256_1_0_0_1_n_n rfl x0 x1 x2 x3 _ (fun _ => rfl) bitsLt_bf16_f32 p q)

/-- By evaluation at each of the 25 points. -/
theorem idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

end Val2

/-- Point `t` writes rows `2000·t …` of the output, each the reference's value of the same row; the 25 blocks cover the rows. -/
theorem final2 (V : (c : Dev nD) → (b : Ref sig .tc) → Buf (Elt Ideal) ((c : Thread nD τ).loc b)) (c : Dev nD) :
    (dat2 (F := Ideal) V c).arrAt 4 cfg2.N
      = Cert.ReferenceIdeal.Hand.mlp256 (F := Ideal) (V c main_v23) (V c main_v33) (V c main_arg7) (V c main_arg8) := by
  have hN : cfg2.N = 25 := N_2
  refine (dat2 (F := Ideal) V c).arrAt_eq_of_cover 4 _ (fun t _ => ?_) fun i => ?_
  · obtain ⟨a0, a1, b0, b1, c0, c1, d0, d1, e0, e1⟩ := Val2.idx t
    show (cfg2.win 4).cut (grid2.coords t) ((dat2 V c).after 4 t) = _
    rw [after2_4]
    unfold out2_4
    rw [View.canon_unit_zero hz]
    simp only [View.ld_unit_zero (S := S2000x256) hz, View.ld_unit_zero (S := S256x256) hz, View.ld_unit_zero (S := S256x256) hz]
    funext y
    obtain ⟨p, q, rfl⟩ : ∃ (p : Fin 2000) (q : Fin 256), y = ix2 p q := ⟨y 0, y 1, eq_ix2 y⟩
    have ht : t.val < 25 := hN ▸ t.isLt
    obtain ⟨r, hr⟩ : ∃ r : Fin 50000, r.val = 2000 * t.val + p.val := ⟨⟨_, by have := p.isLt; omega⟩, rfl⟩
    show k2_pay1 (F := Ideal) (iblk2 V c 0 t) (iblk2 V c 1 t) (iblk2 V c 2 t) (iblk2 V c 3 t) (ix2 p q)
      = mlp256 (F := Ideal) (V c main_v23) (V c main_v33) (V c main_arg7) (V c main_arg8) (((cfg2.win 4).blk t).view.emb (ix2 p q))
    rw [show ((cfg2.win 4).blk t).view.emb (ix2 p q) = ix2 r q from
      emb_eq win2_4 t (ix2 p q) (ix2 r q) (Fin.forall_fin_two.2 ⟨off_row e0 hr, off_zero e1⟩)]
    exact (Val2.pay_apply _ _ _ _ p q).trans ((congrArg (max · zf) (mlpPre_congr
      (fun k => congrArg (V c main_v23) (emb_eq win2_0 t (ix2 p k) (ix2 r k) (Fin.forall_fin_two.2 ⟨off_row a0 hr, off_zero a1⟩)))
      (fun k => congrArg (V c main_v33) (emb_eq win2_1 t (ix2 p k) (ix2 r k) (Fin.forall_fin_two.2 ⟨off_row b0 hr, off_zero b1⟩)))
      (fun k j => congrArg (V c main_arg7) (emb_eq win2_2 t (ix2 k j) (ix2 k j) (Fin.forall_fin_two.2 ⟨off_zero c0, off_zero c1⟩)))
      (fun j => congrArg (V c main_arg8) (emb_eq win2_3 t (ix2 j q) (ix2 j q) (Fin.forall_fin_two.2 ⟨off_zero d0, off_zero d1⟩))))).trans
      (Val2.ref_apply _ _ _ _ r q).symm)
  · have hi0 : (i 0).val < 50000 := (i 0).isLt
    have hi1 : (i 1).val < 256 := (i 1).isLt
    obtain ⟨t, ht⟩ : ∃ t : Fin cfg2.N, t.val = (i 0).val / 2000 := ⟨⟨_, by omega⟩, rfl⟩
    obtain ⟨-, -, -, -, -, -, -, -, e0, e1⟩ := Val2.idx t
    refine ⟨t, flush2_4 t, ?_⟩
    show i ∈ ((View.whole main_v34).slice (win2_4.rect t)).set
    rw [View.set_slice_whole, Rect.mem_set_unit]
    exact Fin.forall_fin_two.2 ⟨row_mem (by decide) (e0.trans ht), col_mem e1 hi1⟩

end Cert.KernelIdeal.Hand

end
-- ==== Proof.KI.Val3.lean ====
import proofs.«428498_j27358941675990_1_alg».proof.Proof.KI.R3
import proofs.«428498_j27358941675990_1_alg».proof.Proof.KI.MlpRow
import proofs.«428498_j27358941675990_1_alg».proof.Proof.Ref.Stages
import proofs.«428498_j27358941675990_1_alg».proof.Proof.Ref.Bn
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.ReferenceIdeal.Hand (bnormK bnormK_apply)

theorem pay3_apply {F : FTy → Type} [FloatOps F] (x0 : Vec F S2000x256 .f32) (x1 x2 x3 x4 : Vec F S1x256 .f32) (p : Fin 2000) (q : Fin 256) :
    k3_pay1 x0 x1 x2 x3 x4 (ix2 p q)
      = FloatOps.addf (FloatOps.mulf (FloatOps.mulf (FloatOps.subf (x0 (ix2 p q)) (x1 (ix2 (0 : Fin 1) q)))
          (FloatOps.rsqrt (FloatOps.addf (x2 (ix2 (0 : Fin 1) q)) (FloatOps.ofBits .f32 0x3727C5AC#32))))
          (x3 (ix2 (0 : Fin 1) q))) (x4 (ix2 (0 : Fin 1) q)) := by
  unfold k3_pay1
  simp only [shapeCast_self]
  show FloatOps.addf (FloatOps.mulf (FloatOps.mulf (FloatOps.subf (x0 (ix2 p q))
      (broadcastTo S2000x256 x1 broadcasts_S1x256_S2000x256 (ix2 p q)))
      (broadcastTo S2000x256 (rsqrt (addf x2 (broadcast S1x256 (Scalar.ofBits .f32 0x3727C5AC#32)))) broadcasts_S1x256_S2000x256 (ix2 p q)))
      (broadcastTo S2000x256 x3 broadcasts_S1x256_S2000x256 (ix2 p q)))
      (broadcastTo S2000x256 x4 broadcasts_S1x256_S2000x256 (ix2 p q)) = _
  rw [broadcastTo_1b_ab_apply, broadcastTo_1b_ab_apply, broadcastTo_1b_ab_apply, broadcastTo_1b_ab_apply]
  rfl

/-- By evaluation at each of the 25 points. -/
theorem idx_facts3 : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

section
variable (V : (c : Dev nD) → (b : Ref sig .tc) → Buf (Elt Ideal) ((c : Thread nD τ).loc b)) (c : Dev nD)

/-- An entry of each block at point `t` is the array's entry at the block's offset plus its own coordinates. -/
theorem blk3 (t : Fin cfg3.N) (p : Fin 2000) (q : Fin 256) (r : Fin 50000) (hr : r.val = 2000 * t.val + p.val) :
    ((cfg3.win 5).blk t).view.emb (ix2 p q) = ix2 r q
    ∧ (iblk3 V c 0 t : Vec Ideal S2000x256 .f32) (ix2 p q) = V c main_v34 (ix2 r q)
    ∧ (iblk3 V c 1 t : Vec Ideal S1x256 .f32) (ix2 (0 : Fin 1) q) = V c main_v39 (ix2 (0 : Fin 1) q)
    ∧ (iblk3 V c 2 t : Vec Ideal S1x256 .f32) (ix2 (0 : Fin 1) q) = V c main_v40 (ix2 (0 : Fin 1) q)
    ∧ (iblk3 V c 3 t : Vec Ideal S1x256 .f32) (ix2 (0 : Fin 1) q) = V c main_v41 (ix2 (0 : Fin 1) q)
    ∧ (iblk3 V c 4 t : Vec Ideal S1x256 .f32) (ix2 (0 : Fin 1) q) = V c main_v42 (ix2 (0 : Fin 1) q) := by
  obtain ⟨a0, a1, f0, f1, b0, b1, c0, c1, d0, d1, e0, e1⟩ := idx_facts3 t
  exact ⟨emb_eq win3_5 t (ix2 p q) (ix2 r q) (Fin.forall_fin_two.2 ⟨off_row f0 hr, off_zero f1⟩),
    congrArg (V c main_v34) (emb_eq win3_0 t (ix2 p q) (ix2 r q) (Fin.forall_fin_two.2 ⟨off_row a0 hr, off_zero a1⟩)),
    congrArg (V c main_v39) (emb_eq win3_1 t (ix2 (0 : Fin 1) q) (ix2 (0 : Fin 1) q) (Fin.forall_fin_two.2 ⟨off_zero b0, off_zero b1⟩)),
    congrArg (V c main_v40) (emb_eq win3_2 t (ix2 (0 : Fin 1) q) (ix2 (0 : Fin 1) q) (Fin.forall_fin_two.2 ⟨off_zero c0, off_zero c1⟩)),
    congrArg (V c main_v41) (emb_eq win3_3 t (ix2 (0 : Fin 1) q) (ix2 (0 : Fin 1) q) (Fin.forall_fin_two.2 ⟨off_zero d0, off_zero d1⟩)),
    congrArg (V c main_v42) (emb_eq win3_4 t (ix2 (0 : Fin 1) q) (ix2 (0 : Fin 1) q) (Fin.forall_fin_two.2 ⟨off_zero e0, off_zero e1⟩))⟩

/-- Point `t` writes rows `2000·t …` of the output, each the normalisation of the same row. -/
theorem flushed3 (t : Fin cfg3.N) : (dat3 (F := Ideal) V c).flushed 5 t = ((cfg3.win 5).blk t).view.read (Elt Ideal)
    (bnormK (F := Ideal) (V c main_v34) (V c main_v39) (V c main_v40) (V c main_v41) (V c main_v42)) := by
  show (cfg3.win 5).cut (grid3.coords t) ((dat3 (F := Ideal) V c).after 5 t) = _
  rw [after3_5]
  unfold out3_5
  rw [View.canon_unit_zero hz]
  simp only [View.ld_unit_zero (S := S2000x256) hz, View.ld_unit_zero (S := S1x256) hz]
  funext j
  obtain ⟨p, q, rfl⟩ : ∃ (p : Fin 2000) (q : Fin 256), j = ix2 p q := ⟨j 0, j 1, eq_ix2 j⟩
  have ht : t.val < 25 := (N_3 : cfg3.N = 25) ▸ t.isLt
  obtain ⟨r, hr⟩ : ∃ r : Fin 50000, r.val = 2000 * t.val + p.val := ⟨⟨_, by have := p.isLt; omega⟩, rfl⟩
  rw [View.read_apply]
  show k3_pay1 (iblk3 V c 0 t) (iblk3 V c 1 t) (iblk3 V c 2 t) (iblk3 V c 3 t) (iblk3 V c 4 t) (ix2 p q)
    = bnormK (F := Ideal) (V c main_v34) (V c main_v39) (V c main_v40) (V c main_v41) (V c main_v42) (((cfg3.win 5).blk t).view.emb (ix2 p q))
  obtain ⟨h5, h0, h1, h2, h3, h4⟩ := blk3 V c t p q r hr
  rw [h5, pay3_apply, bnormK_apply, h0, h1, h2, h3, h4]
  rfl

/-- The 25 blocks of 2000 rows cover the output, so it ends holding the normalisation. -/
theorem final3 : (dat3 (F := Ideal) V c).arrAt 5 cfg3.N
    = Cert.ReferenceIdeal.Hand.bnormK (F := Ideal) (V c main_v34) (V c main_v39) (V c main_v40) (V c main_v41) (V c main_v42) := by
  refine (dat3 (F := Ideal) V c).arrAt_eq_of_cover 5 _ (fun t _ => flushed3 V c t) fun i => ?_
  · have hN : cfg3.N = 25 := N_3
    have hi0 : (i 0).val < 50000 := (i 0).isLt
    have hi1 : (i 1).val < 256 := (i 1).isLt
    obtain ⟨t, ht⟩ : ∃ t : Fin cfg3.N, t.val = (i 0).val / 2000 := ⟨⟨_, by omega⟩, rfl⟩
    obtain ⟨-, -, e0, e1, -⟩ := idx_facts3 t
    refine ⟨t, flush3_5 t, ?_⟩
    show i ∈ ((View.whole main_v43).slice (win3_5.rect t)).set
    rw [View.set_slice_whole, Rect.mem_set_unit]
    exact Fin.forall_fin_two.2 ⟨row_mem (by decide) (e0.trans ht), col_mem e1 hi1⟩

end

end Cert.KernelIdeal.Hand

end
-- ==== Proof.KI.Val4.lean ====
import proofs.«428498_j27358941675990_1_alg».proof.Proof.KI.R4
import proofs.«428498_j27358941675990_1_alg».proof.Proof.KI.MlpRow
import proofs.«428498_j27358941675990_1_alg».proof.Proof.Ref.Stages
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open MlpRow
open Cert.ReferenceIdeal.Hand (mlp256nr)

namespace Val4

theorem ref_apply (x agg : Vec Ideal Cert.ReferenceIdeal.S50000x256 .f32) (w1 w2 : Vec Ideal Cert.ReferenceIdeal.S256x256 .f32) (r : Fin 50000) (q : Fin 256) :
    mlp256nr (F := Ideal) x agg w1 w2 (ix2 r q)
      = mlpPre (fun c => x (ix2 r c)) (fun c => agg (ix2 r c)) (fun c j => w1 (ix2 c j)) (fun j => w2 (ix2 j q)) :=
  host_pre_apply Cert.ReferenceIdeal.dot_S50000x256_S256x256_S50000x256_1_0_0_1_n_n rfl
    Cert.ReferenceIdeal.dot_S50000x256_S256x256_S50000x256_1_0_0_1_n_n rfl x agg w1 w2 _ (fun _ => rfl) r q

theorem pay_apply (x0 x1 : Vec Ideal S2000x256 .f32) (x2 x3 : Vec Ideal S256x256 .f32) (p : Fin 2000) (q : Fin 256) :
    k4_pay1 (F := Ideal) x0 x1 x2 x3 (ix2 p q)
      = mlpPre (fun c => x0 (ix2 p c)) (fun c => x1 (ix2 p c)) (fun c j => x2 (ix2 c j)) (fun j => x3 (ix2 j q)) := by
  unfold k4_pay1
  simp only [shapeCast_self]
  exact unit_pre_apply dot_S2000x256_S256x256_S2000x256_1_0_0_1_n_n rfl
    dot_S2000x256_S256x256_S2000x256_1_0_0_1_n_n rfl x0 x1 x2 x3 _ (fun _ => rfl) bitsLt_bf16_f32 p q

/-- By evaluation at each of the 25 points. -/
theorem idx : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

end Val4

section
variable (V : (c : Dev nD) → (b : Ref sig .tc) → Buf (Elt Ideal) ((c : Thread nD τ).loc b)) (c : Dev nD)

/-- Point `t` writes rows `2000·t …` of the output, each the reference's value of the same row. -/
theorem flushed4 (t : Fin cfg4.N) : (dat4 (F := Ideal) V c).flushed 4 t = ((cfg4.win 4).blk t).view.read (Elt Ideal)
    (mlp256nr (F := Ideal) (V c main_v43) (V c main_v53) (V c main_arg11) (V c main_arg12)) := by
  obtain ⟨a0, a1, b0, b1, c0, c1, d0, d1, e0, e1⟩ := Val4.idx t
  show (cfg4.win 4).cut (grid4.coords t) ((dat4 V c).after 4 t) = _
  rw [after4_4]
  unfold out4_4
  rw [View.canon_unit_zero hz]
  simp only [View.ld_unit_zero (S := S2000x256) hz, View.ld_unit_zero (S := S256x256) hz]
  funext y
  obtain ⟨p, q, rfl⟩ : ∃ (p : Fin 2000) (q : Fin 256), y = ix2 p q := ⟨y 0, y 1, eq_ix2 y⟩
  have ht : t.val < 25 := (N_4 : cfg4.N = 25) ▸ t.isLt
  obtain ⟨r, hr⟩ : ∃ r : Fin 50000, r.val = 2000 * t.val + p.val := ⟨⟨_, by have := p.isLt; omega⟩, rfl⟩
  show k4_pay1 (F := Ideal) (iblk4 V c 0 t) (iblk4 V c 1 t) (iblk4 V c 2 t) (iblk4 V c 3 t) (ix2 p q)
    = mlp256nr (F := Ideal) (V c main_v43) (V c main_v53) (V c main_arg11) (V c main_arg12) (((cfg4.win 4).blk t).view.emb (ix2 p q))
  rw [show ((cfg4.win 4).blk t).view.emb (ix2 p q) = ix2 r q from
    emb_eq win4_4 t (ix2 p q) (ix2 r q) (Fin.forall_fin_two.2 ⟨off_row e0 hr, off_zero e1⟩)]
  exact (Val4.pay_apply _ _ _ _ p q).trans ((mlpPre_congr
    (fun k => congrArg (V c main_v43) (emb_eq win4_0 t (ix2 p k) (ix2 r k) (Fin.forall_fin_two.2 ⟨off_row a0 hr, off_zero a1⟩)))
    (fun k => congrArg (V c main_v53) (emb_eq win4_1 t (ix2 p k) (ix2 r k) (Fin.forall_fin_two.2 ⟨off_row b0 hr, off_zero b1⟩)))
    (fun k j => congrArg (V c main_arg11) (emb_eq win4_2 t (ix2 k j) (ix2 k j) (Fin.forall_fin_two.2 ⟨off_zero c0, off_zero c1⟩)))
    (fun j => congrArg (V c main_arg12) (emb_eq win4_3 t (ix2 j q) (ix2 j q) (Fin.forall_fin_two.2 ⟨off_zero d0, off_zero d1⟩)))).trans
    (Val4.ref_apply _ _ _ _ r q).symm)

/-- The 25 blocks of 2000 rows cover the output, so it ends holding the reference's array. -/
theorem final4 : (dat4 (F := Ideal) V c).arrAt 4 cfg4.N
    = Cert.ReferenceIdeal.Hand.mlp256nr (F := Ideal) (V c main_v43) (V c main_v53) (V c main_arg11) (V c main_arg12) := by
  refine (dat4 (F := Ideal) V c).arrAt_eq_of_cover 4 _ (fun t _ => flushed4 V c t) fun i => ?_
  have hN : cfg4.N = 25 := N_4
  have hi0 : (i 0).val < 50000 := (i 0).isLt
  have hi1 : (i 1).val < 256 := (i 1).isLt
  obtain ⟨t, ht⟩ : ∃ t : Fin cfg4.N, t.val = (i 0).val / 2000 := ⟨⟨_, by omega⟩, rfl⟩
  obtain ⟨-, -, -, -, -, -, -, -, e0, e1⟩ := Val4.idx t
  refine ⟨t, flush4_4 t, ?_⟩
  show i ∈ ((View.whole main_v54).slice (win4_4.rect t)).set
  rw [View.set_slice_whole, Rect.mem_set_unit]
  exact Fin.forall_fin_two.2 ⟨row_mem (by decide) (e0.trans ht), col_mem e1 hi1⟩

end

end Cert.KernelIdeal.Hand

end
-- ==== Proof.KI.PoolOut.lean ====
import proofs.«428498_j27358941675990_1_alg».proof.Proof.KI.R5
import proofs.«428498_j27358941675990_1_alg».proof.Proof.KI.MlpRow
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

theorem idx_facts5_2 : ∀ t : Fin cfg5.N, win5_2.index t (0 : Fin 2) = 0 ∧ win5_2.index t (1 : Fin 2) = 0 :=
  (by decide +kernel : ∀ t : Fin grid5.N, _)

theorem emb5_2 (t : Fin cfg5.N) (p : Fin 256) (q : Fin 256) :
    (((cfg5.win 2).blk t).view.emb (ix2 p q) : S256x256.Idx) = ix2 p q :=
  emb_eq win5_2 t (ix2 p q) (ix2 p q) (Fin.forall_fin_two.2 ⟨off_zero (idx_facts5_2 t).1, off_zero (idx_facts5_2 t).2⟩)

theorem cover5_2 (h9 : 9 < cfg5.N) (i : S256x256.Idx) :
    ∃ t : Fin cfg5.N, (cfg5.win 2).flush t = true ∧ i ∈ ((cfg5.win 2).blk t).view.set := by
  obtain ⟨e0, e1⟩ := idx_facts5_2 ⟨9, h9⟩
  refine ⟨⟨9, h9⟩, (flush5_2 ⟨9, h9⟩).mpr rfl, ?_⟩
  show i ∈ ((View.whole main_v56).slice (win5_2.rect ⟨9, h9⟩)).set
  rw [View.set_slice_whole, Rect.mem_set_unit]
  exact Fin.forall_fin_two.2 ⟨col_mem e0 (i 0).isLt, col_mem e1 (i 1).isLt⟩

section Region5
variable (V : (c : Dev nD) → (b : Ref sig .tc) → Buf (Elt F) ((c : Thread nD τ).loc b))

theorem flushed5_2_eq (c : Dev nD) (h9 : 9 < cfg5.N) (t : Fin cfg5.N) (ht : t.val = 9) :
    (dat5 V c).flushed 2 t = ((cfg5.win 2).blk t).view.read (Elt F) (accAt5 V c 9 h9) := by
  show (cfg5.win 2).cut (grid5.coords t) ((dat5 V c).after 2 t) = _
  rw [after5_2]
  funext j
  obtain ⟨p, q, rfl⟩ : ∃ (p : Fin 256) (q : Fin 256), j = ix2 p q := ⟨j 0, j 1, eq_ix2 j⟩
  rw [View.read_apply]
  show accAt5 V c t.val t.isLt (ix2 p q) = accAt5 V c 9 h9 (((cfg5.win 2).blk t).view.emb (ix2 p q))
  rw [emb5_2]
  obtain ⟨n, hn⟩ := t
  obtain rfl : n = 9 := ht
  rfl

theorem arrAt5_last (c : Dev nD) (h9 : 9 < cfg5.N) : (dat5 V c).arrAt 2 cfg5.N = accAt5 V c 9 h9 :=
  (dat5 V c).arrAt_eq_of_cover 2 _
    (fun t hf => flushed5_2_eq V c h9 t (by
      have h := (flush5_2 t).mp hf
      have hN : t.val < 10 := lt_of_lt_of_eq t.isLt (show cfg5.N = 10 from N_5)
      omega))
    (cover5_2 h9)

end Region5

end Cert.KernelIdeal.Hand

end
-- ==== Proof.Ref.PoolSum.lean ====
import proofs.«428498_j27358941675990_1_alg».proof.Proof.Ref.Stages
import Idealize.ShloMosaic.Lib.Pipeline.Value
import Idealize.ShloMosaic.Lib.ValueIdx
import Idealize.ShloMosaic.PureOps.Ideal.Laws
import Idealize.ShloMosaic.Lib.StableHlo.Predicate

noncomputable section

namespace Cert.ReferenceIdeal.Hand

open Idealize.ShloMosaic Idealize.SL.Sem Cert.ReferenceIdeal
open Cert.ReferenceIdeal.Facts₀ Cert.ReferenceIdeal.Facts
open Idealize.ShloMosaic.ValueIdx
open scoped BigOperators

section AtIdeal

abbrev colIdx (n : Fin 50000) : S50000x1.Idx := ix2 (n0 := 50000) (n1 := 1) n 0

local notation "sd" => scatter_S256x256_S50000x1_S50000x256_1_0_0_1

theorem sd_start_zero (ids : IVec S50000x1 32) (j : S50000x256.Idx) :
    ScatterDims.start sd j ids 0 = (ids (colIdx (j 0))).toInt := by
  unfold ScatterDims.start
  rw [dif_pos (show (0 : Fin S256x256.rank) ∈ (sd).scatterDimsToOperandDims from List.mem_singleton.mpr rfl)]
  refine congrArg (fun k => (ids k).toInt) (funext fun b => Fin.ext ?_)
  match b with
  | ⟨0, _⟩ => rfl
  | ⟨1, _⟩ => rfl

theorem sd_start_one (ids : IVec S50000x1 32) (j : S50000x256.Idx) :
    ScatterDims.start sd j ids 1 = 0 := by
  unfold ScatterDims.start
  rw [dif_neg (show ¬ (1 : Fin S256x256.rank) ∈ (sd).scatterDimsToOperandDims from by decide)]

theorem sd_window_zero (j : S50000x256.Idx) : ScatterDims.window sd j 0 = 0 := by
  unfold ScatterDims.window
  rw [dif_neg (show ¬ (0 : Fin S256x256.rank) ∈ (sd).sKept from by decide)]

theorem sd_window_one (j : S50000x256.Idx) : ScatterDims.window sd j 1 = (j 1).val := by
  unfold ScatterDims.window
  rw [dif_pos (show (1 : Fin S256x256.rank) ∈ (sd).sKept from by decide)]
  rfl

theorem sd_resultIdx_iff (ids : IVec S50000x1 32) (j : S50000x256.Idx) (i : S256x256.Idx) :
    ScatterDims.resultIdx? sd j ids = some i ↔ (ids (colIdx (j 0))).toInt = ((i 0).val : Int) ∧ (j 1).val = (i 1).val := by
  have hi0 : (i 0).val < 256 := (i 0).isLt
  have hi1 : (i 1).val < 256 := (i 1).isLt
  have hj1 : (j 1).val < 256 := (j 1).isLt
  unfold ScatterDims.resultIdx?
  split
  · rename_i h
    rw [Option.some.injEq]
    constructor
    · intro e
      have e0 := congrArg (fun f => (f 0).val) e
      have e1 := congrArg (fun f => (f 1).val) e
      simp only [sd_start_zero, sd_start_one, sd_window_zero, sd_window_one] at e0 e1
      have h0 := h 0
      rw [sd_start_zero, sd_window_zero] at h0
      constructor
      · omega
      · omega
    · rintro ⟨e0, e1⟩
      funext a
      refine Fin.ext ?_
      match a with
      | ⟨0, _⟩ =>
        show (ScatterDims.start sd j ids 0 + ((ScatterDims.window sd j 0 : Nat) : Int)).toNat = (i 0).val
        rw [sd_start_zero, sd_window_zero, e0]; omega
      | ⟨1, _⟩ =>
        show (ScatterDims.start sd j ids 1 + ((ScatterDims.window sd j 1 : Nat) : Int)).toNat = (i 1).val
        rw [sd_start_one, sd_window_one]; omega
  · rename_i h
    constructor
    · intro e; exact absurd e (by simp)
    · rintro ⟨e0, e1⟩
      exfalso
      apply h
      intro a
      match a with
      | ⟨0, _⟩ =>
        show 0 ≤ ScatterDims.start sd j ids 0 + ((ScatterDims.window sd j 0 : Nat) : Int) ∧ ScatterDims.start sd j ids 0 + ((ScatterDims.window sd j 0 : Nat) : Int) < ((256 : Nat) : Int)
        rw [sd_start_zero, sd_window_zero, e0]; omega
      | ⟨1, _⟩ =>
        show 0 ≤ ScatterDims.start sd j ids 1 + ((ScatterDims.window sd j 1 : Nat) : Int) ∧ ScatterDims.start sd j ids 1 + ((ScatterDims.window sd j 1 : Nat) : Int) < ((256 : Nat) : Int)
        rw [sd_start_one, sd_window_one]; omega

theorem sd_resultIdx_ix2 (ids : IVec S50000x1 32) (n : Fin 50000) (d' g d : Fin 256) :
    ScatterDims.resultIdx? sd (ix2 (n0 := 50000) (n1 := 256) n d') ids = some (ix2 (n0 := 256) (n1 := 256) g d)
      ↔ (ids (colIdx n)).toInt = ((g.val : Nat) : Int) ∧ d' = d :=
  (sd_resultIdx_iff ids _ _).trans ⟨fun ⟨a, b⟩ => ⟨a, Fin.ext b⟩, fun ⟨a, b⟩ => ⟨a, congrArg Fin.val b⟩⟩

theorem poolK_apply_toInt (h : Arr Ideal S50000x256 .f32) (ids : Arr Ideal S50000x1 .i32) (g d : Fin 256) :
    poolK (F := Ideal) h ids (ix2 (n0 := 256) (n1 := 256) g d)
      = ∑ n : Fin 50000, if (ids (colIdx n)).toInt = ((g.val : Nat) : Int) then h (ix2 (n0 := 50000) (n1 := 256) n d) else (0 : EReal) := by
  show Ideal.hostScatterAdd sd _ ids h _ = _
  unfold Ideal.hostScatterAdd
  have hz : ∀ i : S256x256.Idx,
      (broadcastInDim S256x256 ![] bcast_S_S256x256 (constant (F := Ideal) S_ .f32 0x00000000#32)) i = (0 : EReal) := by
    intro i; unfold broadcastInDim; rw [constant_apply]; exact Ideal.ofBits_zero_f32
  rw [hz, zero_add]
  rw [Finset.sum_filter, sum_idx2]
  refine Finset.sum_congr rfl fun n _ => ?_
  simp only [sd_resultIdx_ix2]
  by_cases hg : (ids (colIdx n)).toInt = ((g.val : Nat) : Int)
  · rw [if_pos hg, Finset.sum_eq_single d]
    · rw [if_pos ⟨hg, rfl⟩]
    · intro b _ hb
      rw [if_neg]
      rintro ⟨_, e⟩
      exact hb e
    · intro hd
      exact absurd (Finset.mem_univ _) hd
  · rw [if_neg hg]
    exact Finset.sum_eq_zero fun b _ => if_neg (fun e => hg e.1)

theorem toInt_eq_iff_word (w : BitVec 32) (g : Fin 256) : w.toInt = ((g.val : Nat) : Int) ↔ w = BitVec.ofNat 32 g.val := by
  have hg : g.val < 2 ^ 31 := lt_of_lt_of_le g.isLt (by norm_num)
  constructor
  · intro h
    apply BitVec.eq_of_toInt_eq
    rw [h, StableHlo.Predicate.toInt_ofNat_small _ hg]
  · rintro rfl
    exact StableHlo.Predicate.toInt_ofNat_small _ hg

theorem poolK_apply (h : Arr Ideal S50000x256 .f32) (ids : Arr Ideal S50000x1 .i32) (g d : Fin 256) :
    poolK (F := Ideal) h ids (ValueIdx.ix2 g d)
      = ∑ n : Fin 50000, (if ids (ValueIdx.ix2 n (0 : Fin 1)) = BitVec.ofNat 32 g.val then h (ValueIdx.ix2 n d) else 0) := by
  rw [poolK_apply_toInt]
  exact Finset.sum_congr rfl fun n _ => if_congr (toInt_eq_iff_word _ g) rfl rfl

end AtIdeal

end Cert.ReferenceIdeal.Hand

end
-- ==== Proof.KI.PoolSplit.lean ====
import Mathlib.Algebra.BigOperators.Fin
import Mathlib.Logic.Equiv.Fin.Basic

namespace Cert.KernelIdeal.Hand

theorem sum_blocks10 {M : Type*} [AddCommMonoid M] (f : Fin 50000 → M) :
    ∑ s ∈ Finset.range 10, ∑ p : Fin 5000, (if h : 5000 * s + p.val < 50000 then f ⟨5000 * s + p.val, h⟩ else 0)
      = ∑ n : Fin 50000, f n := by
  have key : ∀ (s : Fin 10) (p : Fin 5000), 5000 * s.val + p.val < 50000 := fun s p => by omega
  calc ∑ s ∈ Finset.range 10, ∑ p : Fin 5000, (if h : 5000 * s + p.val < 50000 then f ⟨5000 * s + p.val, h⟩ else 0)
      = ∑ s : Fin 10, ∑ p : Fin 5000, f ⟨5000 * s.val + p.val, key s p⟩ := by
        rw [← Fin.sum_univ_eq_sum_range
          (fun s => ∑ p : Fin 5000, (if h : 5000 * s + p.val < 50000 then f ⟨5000 * s + p.val, h⟩ else 0)) 10]
        refine Finset.sum_congr rfl fun s _ => Finset.sum_congr rfl fun p _ => ?_
        rw [dif_pos (key s p)]
    _ = ∑ x : Fin 10 × Fin 5000, f ⟨5000 * x.1.val + x.2.val, key x.1 x.2⟩ :=
        (Fintype.sum_prod_type (fun x : Fin 10 × Fin 5000 => f ⟨5000 * x.1.val + x.2.val, key x.1 x.2⟩)).symm
    _ = ∑ n : Fin 50000, f n := by
        have e := Equiv.sum_comp (finProdFinEquiv (m := 10) (n := 5000)) (fun n : Fin (10 * 5000) => f n)
        refine Eq.trans (Finset.sum_congr rfl fun x _ => congrArg f (Fin.ext ?_)) e
        show 5000 * x.1.val + x.2.val = x.2.val + 5000 * x.1.val
        omega

end Cert.KernelIdeal.Hand
-- ==== Proof.KI.Val5.lean ====
import proofs.«428498_j27358941675990_1_alg».proof.Proof.KI.PoolOut
import proofs.«428498_j27358941675990_1_alg».proof.Proof.Ref.PoolSum
import proofs.«428498_j27358941675990_1_alg».proof.Proof.KI.PoolSplit
import proofs.«428498_j27358941675990_1_alg».proof.Proof.KI.MlpRow
import Idealize.ShloMosaic.Lib.Pipeline.Value
import Idealize.ShloMosaic.Lib.ValueIdx
import Idealize.ShloMosaic.Lib.StableHlo.Predicate
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx
open Idealize.ShloMosaic.StableHlo.Predicate (cmpi_eq_iff)
open scoped BigOperators

local notation "dd" => dot_S5000x256_S5000x256_S256x256_0_0_1_1_n_n

def onehot5 (ids : Vec Ideal S5000x1 .i32) : FVec Ideal S5000x256 .bf16 :=
  truncf .bf16 (sitofp .f32 (extui 32 (cmpi .eq (broadcastTo S5000x256 ids broadcasts_S5000x1_S5000x256)
    (iota .tc S5000x256 32 [1] iota_S5000x256_d1_w32)) natLt_1_32) : FVec Ideal S5000x256 .f32) bitsLt_bf16_f32

theorem k5_pay2_eq (ids : Vec Ideal S5000x1 .i32) (h : Vec Ideal S5000x256 .f32) (acc : Vec Ideal S256x256 .f32) :
    k5_pay2 ids h acc = addf acc (matmul dd none (onehot5 ids) (truncf .bf16 h bitsLt_bf16_f32 : FVec Ideal S5000x256 .bf16)
      (constant S256x256 .f32 0x00000000#32)) := by
  unfold k5_pay2 onehot5
  simp only [shapeCast_self]

theorem cmpi_eq_word (x y : BitVec 32) :
    ((((IntOp.cmpi .eq x y).setWidth 32).toInt : ℝ) : EReal) = if x = y then 1 else 0 := by
  have h1 : ((1#1 : BitVec 1).setWidth 32).toInt = 1 := by decide
  have h0 : ((0#1 : BitVec 1).setWidth 32).toInt = 0 := by decide
  by_cases h : x = y
  · rw [if_pos h, cmpi_eq_iff.mpr h, h1]; simp
  · rw [if_neg h]
    have : IntOp.cmpi .eq x y = 0#1 := eq_zero_of_ne_one (fun e => h (cmpi_eq_iff.mp e))
    rw [this, h0]; simp

theorem onehot5_apply (ids : Vec Ideal S5000x1 .i32) (p : Fin 5000) (g : Fin 256) :
    onehot5 ids (ix2 (n0 := 5000) (n1 := 256) p g)
      = if ids (ix2 (n0 := 5000) (n1 := 1) p 0) = BitVec.ofNat 32 g.val then (1 : EReal) else 0 := by
  unfold onehot5
  show ((((IntOp.cmpi .eq (broadcastTo S5000x256 ids broadcasts_S5000x1_S5000x256 (ix2 (n0 := 5000) (n1 := 256) p g))
      (iota .tc S5000x256 32 [1] iota_S5000x256_d1_w32 (ix2 (n0 := 5000) (n1 := 256) p g))).setWidth 32).toInt : ℝ) : EReal) = _
  rw [cmpi_eq_word, iota_single_apply,
    broadcastTo_apply ids broadcasts_S5000x1_S5000x256 (ix2 (n0 := 5000) (n1 := 256) p g) (ix2 (n0 := 5000) (n1 := 1) p 0)
      (fun a => by match a with | ⟨0, _⟩ => rfl | ⟨1, _⟩ => rfl)]

theorem dd_rank : (dd).contr.rank = 1 := rfl
theorem dd_size : (dd).contr.size ⟨0, by rw [dd_rank]; exact Nat.one_pos⟩ = 5000 := rfl

theorem dd_lhsIdx (g d : Fin 256) (p : Fin 5000) :
    (dd).lhsIdx (ix2 (n0 := 256) (n1 := 256) g d) ((contrEquiv1 dd 5000 dd_rank dd_size).symm p) = ix2 (n0 := 5000) (n1 := 256) p g := by
  funext a
  refine Fin.ext ?_
  match a with
  | ⟨0, _⟩ => rfl
  | ⟨1, _⟩ => rfl

theorem dd_rhsIdx (g d : Fin 256) (p : Fin 5000) :
    (dd).rhsIdx (ix2 (n0 := 256) (n1 := 256) g d) ((contrEquiv1 dd 5000 dd_rank dd_size).symm p) = ix2 (n0 := 5000) (n1 := 256) p d := by
  funext a
  refine Fin.ext ?_
  match a with
  | ⟨0, _⟩ => rfl
  | ⟨1, _⟩ => rfl

theorem k5_pay2_apply (ids : Vec Ideal S5000x1 .i32) (h : Vec Ideal S5000x256 .f32) (acc : Vec Ideal S256x256 .f32) (g d : Fin 256) :
    k5_pay2 ids h acc (ix2 (n0 := 256) (n1 := 256) g d)
      = acc (ix2 (n0 := 256) (n1 := 256) g d)
        + ∑ p : Fin 5000, if ids (ix2 (n0 := 5000) (n1 := 1) p 0) = BitVec.ofNat 32 g.val then h (ix2 (n0 := 5000) (n1 := 256) p d) else (0 : EReal) := by
  rw [k5_pay2_eq, addf_apply]
  simp only [matmul]
  rw [Ideal.matmul_constant_zero_apply, ← Equiv.sum_comp (contrEquiv1 dd 5000 dd_rank dd_size).symm]
  refine congrArg (acc _ + ·) (Finset.sum_congr rfl fun p _ => ?_)
  rw [dd_lhsIdx, dd_rhsIdx, onehot5_apply, truncf_apply]
  by_cases hp : ids (ix2 (n0 := 5000) (n1 := 1) p 0) = BitVec.ofNat 32 g.val
  · rw [if_pos hp, if_pos hp, one_mul]
  · rw [if_neg hp, if_neg hp, zero_mul]

section Val5
variable (V : (c : Dev nD) → (b : Ref sig .tc) → Buf (Elt Ideal) ((c : Thread nD τ).loc b))

abbrev H5 (c : Dev nD) : Vec Ideal S50000x256 .f32 := V c main_v54
abbrev B5 (c : Dev nD) : Vec Ideal S50000x1 .i32 := V c main_v55

theorem hidx5_0 : ∀ t : Fin cfg5.N, win5_0.index t 0 = t.val ∧ win5_0.index t 1 = 0 :=
  (by decide +kernel : ∀ t : Fin grid5.N, win5_0.index t 0 = t.val ∧ win5_0.index t 1 = 0)
theorem hidx5_1 : ∀ t : Fin cfg5.N, win5_1.index t 0 = t.val ∧ win5_1.index t 1 = 0 :=
  (by decide +kernel : ∀ t : Fin grid5.N, win5_1.index t 0 = t.val ∧ win5_1.index t 1 = 0)

theorem node5_lt (t : Fin cfg5.N) (p : Fin 5000) : 5000 * t.val + p.val < 50000 := by
  have h1 := t.isLt
  have hN : cfg5.N = 10 := N_5
  have h2 := p.isLt
  omega

theorem hblk5_0 (c : Dev nD) (t : Fin cfg5.N) (p : Fin 5000) (d : Fin 256) :
    View.ld (iblk5 V c 0 t) r5_0 (ix2 (n0 := 5000) (n1 := 256) p d)
      = H5 V c (ix2 (n0 := 50000) (n1 := 256) ⟨5000 * t.val + p.val, node5_lt t p⟩ d) := by
  rw [View.ld_unit_zero (S := S5000x256) hz]
  exact congrArg (V c main_v54) (emb_eq win5_0 t (ix2 (n0 := 5000) (n1 := 256) p d) (ix2 (n0 := 50000) (n1 := 256) ⟨_, node5_lt t p⟩ d)
    (Fin.forall_fin_two.2 ⟨off_row (hidx5_0 t).1 rfl, off_zero (hidx5_0 t).2⟩))

theorem hblk5_1 (c : Dev nD) (t : Fin cfg5.N) (p : Fin 5000) :
    View.ld (iblk5 V c 1 t) r5_1 (ix2 (n0 := 5000) (n1 := 1) p 0)
      = B5 V c (ix2 (n0 := 50000) (n1 := 1) ⟨5000 * t.val + p.val, node5_lt t p⟩ 0) := by
  rw [View.ld_unit_zero (S := S5000x1) hz]
  exact congrArg (V c main_v55) (emb_eq win5_1 t (ix2 (n0 := 5000) (n1 := 1) p 0) (ix2 (n0 := 50000) (n1 := 1) ⟨_, node5_lt t p⟩ 0)
    (Fin.forall_fin_two.2 ⟨off_row (hidx5_1 t).1 rfl, off_zero (hidx5_1 t).2⟩))

def addend5 (c : Dev nD) (s : ℕ) (g d : Fin 256) : EReal :=
  ∑ p : Fin 5000, if hlt : 5000 * s + p.val < 50000 then
      (if B5 V c (ix2 (n0 := 50000) (n1 := 1) ⟨5000 * s + p.val, hlt⟩ 0) = BitVec.ofNat 32 g.val
        then H5 V c (ix2 (n0 := 50000) (n1 := 256) ⟨5000 * s + p.val, hlt⟩ d) else 0)
    else 0

theorem step5 (c : Dev nD) (t : Fin cfg5.N) (acc : Vec Ideal S256x256 .f32) (g d : Fin 256) :
    k5_pay2 (View.ld (iblk5 V c 1 t) r5_1) (View.ld (iblk5 V c 0 t) r5_0) acc (ix2 (n0 := 256) (n1 := 256) g d)
      = acc (ix2 (n0 := 256) (n1 := 256) g d) + addend5 V c t.val g d := by
  rw [k5_pay2_apply]
  refine congrArg (acc _ + ·) ?_
  unfold addend5
  refine Finset.sum_congr rfl fun p _ => ?_
  rw [dif_pos (node5_lt t p), hblk5_1, hblk5_0]

theorem k5_pay1_apply (i : S256x256.Idx) : k5_pay1 (F := Ideal) i = 0 := by
  unfold k5_pay1
  simp only [shapeCast_self]
  exact Ideal.ofBits_zero_f32

theorem accAt5_apply (c : Dev nD) : ∀ (n : ℕ) (hn : n < cfg5.N) (g d : Fin 256),
    accAt5 V c n hn (ix2 (n0 := 256) (n1 := 256) g d) = ∑ s ∈ Finset.range (n + 1), addend5 V c s g d
  | 0, hn, g, d => by
    rw [accAt5_zero, step5 V c ⟨0, hn⟩, k5_pay1_apply, zero_add, Finset.sum_range_one]
  | n + 1, hn, g, d => by
    rw [accAt5_succ, step5 V c ⟨n + 1, hn⟩, accAt5_apply c n (Nat.lt_of_succ_lt hn) g d, Finset.sum_range_succ _ (n + 1)]

theorem acc5_total (c : Dev nD) (h9 : 9 < cfg5.N) :
    accAt5 V c 9 h9 = Cert.ReferenceIdeal.Hand.poolK (F := Ideal) (V c main_v54) (V c main_v55) := by
  funext i
  obtain ⟨g, d, rfl⟩ : ∃ g d : Fin 256, i = ix2 (n0 := 256) (n1 := 256) g d := ⟨i 0, i 1, eq_ix2 i⟩
  rw [accAt5_apply V c 9 h9 g d, Cert.ReferenceIdeal.Hand.poolK_apply]
  exact sum_blocks10 (fun n => if B5 V c (ix2 (n0 := 50000) (n1 := 1) n 0) = BitVec.ofNat 32 g.val
    then H5 V c (ix2 (n0 := 50000) (n1 := 256) n d) else 0)

theorem final5 (c : Dev nD) :
    (dat5 (F := Ideal) V c).arrAt 2 cfg5.N
      = Cert.ReferenceIdeal.Hand.poolK (F := Ideal) (V c main_v54) (V c main_v55) :=
  have h9 : 9 < cfg5.N := by
    have hN : cfg5.N = 10 := N_5
    omega
  (arrAt5_last V c h9).trans (acc5_total V c h9)

end Val5

end Cert.KernelIdeal.Hand

end
-- ==== Proof.KI.Host.lean ====
import proofs.«428498_j27358941675990_1_alg».proof.Proof.Gen.KernelIdeal.Launch
import proofs.«428498_j27358941675990_1_alg».proof.Proof.Ref.Stages
import Idealize.ShloMosaic.Lib.StableHlo.Run

noncomputable section

namespace Cert.KernelIdeal.Hand

open Cert.KernelIdeal Cert.KernelIdeal.Gen
open Idealize.ShloMosaic Idealize.ShloMosaic.TcCoe Idealize.SL.Sem
open Cert.ReferenceIdeal.Hand (edgeRow0 edgeRow1 agg128 agg256of mean256 var256 cat3)

variable {F : FTy → Type} [FloatOps F]

theorem host0_v1 (X : Valuation τ sig (Elt F)) :
    StableHlo.after hostOps0 X main_v1 = edgeRow0 (X main_arg1) := by
  after_results; rfl

theorem host0_v3 (X : Valuation τ sig (Elt F)) :
    StableHlo.after hostOps0 X main_v3 = edgeRow1 (X main_arg1) := by
  after_results; rfl

set_option maxHeartbeats 1000000 in

theorem host0_v13 (X : Valuation τ sig (Elt F)) :
    StableHlo.after hostOps0 X main_v13 = agg128 (X main_arg0) (X main_arg1) := by
  after_results_simp; rfl

set_option maxHeartbeats 1000000 in

theorem host2_v33 (X : Valuation τ sig (Elt F)) :
    StableHlo.after hostOps2 X main_v33 = agg256of (X main_v23) (X main_v1) (X main_v3) := by
  after_results_simp; rfl

set_option maxHeartbeats 1000000 in

theorem host4_v53 (X : Valuation τ sig (Elt F)) :
    StableHlo.after hostOps4 X main_v53 = agg256of (X main_v43) (X main_v1) (X main_v3) := by
  after_results_simp; rfl

abbrev Y1 (X : Valuation τ sig (Elt F)) : Valuation τ sig (Elt F) :=
  StableHlo.after hostOps1_2 (StableHlo.after hostOps1_1 (StableHlo.after hostOps1 X))

theorem stats1_v19 (X : Valuation τ sig (Elt F)) (sc : S256.ShapeCasts S1x256) :
    Y1 X main_v19 = shapeCast S1x256 (mean256 (X main_v14)) sc := by
  after_results; rfl

set_option maxHeartbeats 1000000 in

theorem stats1_v20 (X : Valuation τ sig (Elt F)) (sc : S256.ShapeCasts S1x256) :
    Y1 X main_v20 = shapeCast S1x256 (var256 (X main_v14)) sc := by
  after_results_simp; rfl

theorem stats1_v21 (X : Valuation τ sig (Elt F)) (sc : S256.ShapeCasts S1x256) :
    Y1 X main_v21 = shapeCast S1x256 (X main_arg5) sc := by
  after_results; rfl

theorem stats1_v22 (X : Valuation τ sig (Elt F)) (sc : S256.ShapeCasts S1x256) :
    Y1 X main_v22 = shapeCast S1x256 (X main_arg6) sc := by
  after_results; rfl

abbrev Y3 (X : Valuation τ sig (Elt F)) : Valuation τ sig (Elt F) :=
  StableHlo.after hostOps3_2 (StableHlo.after hostOps3_1 (StableHlo.after hostOps3 X))

theorem stats3_v39 (X : Valuation τ sig (Elt F)) (sc : S256.ShapeCasts S1x256) :
    Y3 X main_v39 = shapeCast S1x256 (mean256 (X main_v34)) sc := by
  after_results; rfl

set_option maxHeartbeats 1000000 in

theorem stats3_v40 (X : Valuation τ sig (Elt F)) (sc : S256.ShapeCasts S1x256) :
    Y3 X main_v40 = shapeCast S1x256 (var256 (X main_v34)) sc := by
  after_results_simp; rfl

theorem stats3_v41 (X : Valuation τ sig (Elt F)) (sc : S256.ShapeCasts S1x256) :
    Y3 X main_v41 = shapeCast S1x256 (X main_arg9) sc := by
  after_results; rfl

theorem stats3_v42 (X : Valuation τ sig (Elt F)) (sc : S256.ShapeCasts S1x256) :
    Y3 X main_v42 = shapeCast S1x256 (X main_arg10) sc := by
  after_results; rfl

theorem host5_v55 (X : Valuation τ sig (Elt F)) :
    StableHlo.after hostOps5 X main_v55 = shapeCast S50000x1 (X main_arg2) shapeCasts_S50000_S50000x1 := by
  after_results; rfl

theorem host6_v57 (X : Valuation τ sig (Elt F)) :
    StableHlo.after hostOps6 X main_v57 = cat3 (X main_v23) (X main_v43) (X main_v54) := by
  after_results; rfl

end Cert.KernelIdeal.Hand

end
-- ==== Proof.Ref.PoolIds.lean ====
import proofs.«428498_j27358941675990_1_alg».proof.Proof.Ref.Stages
import Idealize.ShloMosaic.Lib.Pipeline.Value
import Idealize.ShloMosaic.Lib.ValueIdx

noncomputable section

namespace Cert.ReferenceIdeal.Hand

open Idealize.ShloMosaic Idealize.SL.Sem Cert.ReferenceIdeal
open Cert.ReferenceIdeal.Facts₀ Cert.ReferenceIdeal.Facts
open Idealize.ShloMosaic.ValueIdx

variable {F : FTy → Type} [FloatOps F]

theorem shapeCast_ids (batch : Arr F S50000 .i32) (h : S50000.ShapeCasts S50000x1) :
    shapeCast S50000x1 batch h = broadcastInDim S50000x1 ![0] bcast_S50000_S50000x1_0 batch := by
  funext j
  have h1 : (j 1).val < 1 := (j 1).isLt
  have hc : shapeCast S50000x1 batch h j = batch (ix1 (n := 50000) (j 0)) :=
    shapeCast_apply batch h j (ix1 (n := 50000) (j 0)) (by
      rw [Shape.rowMajor_val_one, Shape.rowMajor_val_two]
      show (j 0).val = (j 0).val * 1 + (j 1).val
      omega)
  have hb : broadcastInDim S50000x1 ![0] bcast_S50000_S50000x1_0 batch j = batch (ix1 (n := 50000) (j 0)) :=
    broadcastInDim_apply ![0] bcast_S50000_S50000x1_0 batch j (ix1 (n := 50000) (j 0)) (fun a => by
      obtain rfl : a = 0 := Subsingleton.elim _ _
      rw [if_neg (by decide)]
      rfl)
  rw [hc, hb]

end Cert.ReferenceIdeal.Hand

end
-- ==== Proof.KI.Chain.lean ====
import proofs.«428498_j27358941675990_1_alg».proof.Proof.KI.Run
import proofs.«428498_j27358941675990_1_alg».proof.Proof.KI.Val0
import proofs.«428498_j27358941675990_1_alg».proof.Proof.KI.Val1
import proofs.«428498_j27358941675990_1_alg».proof.Proof.KI.Val2
import proofs.«428498_j27358941675990_1_alg».proof.Proof.KI.Val3
import proofs.«428498_j27358941675990_1_alg».proof.Proof.KI.Val4
import proofs.«428498_j27358941675990_1_alg».proof.Proof.KI.Val5
import proofs.«428498_j27358941675990_1_alg».proof.Proof.KI.Host
import proofs.«428498_j27358941675990_1_alg».proof.Proof.Gen.KernelIdeal.Regions
import proofs.«428498_j27358941675990_1_alg».proof.Proof.Ref.Stages
import proofs.«428498_j27358941675990_1_alg».proof.Proof.Ref.Bn
import proofs.«428498_j27358941675990_1_alg».proof.Proof.Ref.PoolIds

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

section Chain

open Cert.ReferenceIdeal.Hand (Arr edgeRow0 edgeRow1 agg128 agg256 agg256of mlp128 mlp256 mlp256nr mean256 var256 bnorm bnormK
  bnormK_shapeCast shapeCast_ids poolK pool cat3 layer0 layer1 layer2)

variable (m : (ℓ : Loc nD τ sig) → Buf (Elt Ideal) ℓ) (ρ : Dev nD → PrngReg) (c : Dev nD)

abbrev argAt (r : Ref sig .tc) : Buf (Elt Ideal) ((c : Thread nD τ).loc r) := m ((c : Thread nD τ).loc r)

def act0 : Arr Ideal S50000x256 .f32 :=
  mlp128 (argAt m c main_arg0) (agg128 (argAt m c main_arg0) (argAt m c main_arg1)) (argAt m c main_arg3) (argAt m c main_arg4)
def hid0 : Arr Ideal S50000x256 .f32 :=
  layer0 (argAt m c main_arg0) (argAt m c main_arg1) (argAt m c main_arg3) (argAt m c main_arg4) (argAt m c main_arg5) (argAt m c main_arg6)
def act1 : Arr Ideal S50000x256 .f32 :=
  mlp256 (hid0 m c) (agg256 (hid0 m c) (argAt m c main_arg1)) (argAt m c main_arg7) (argAt m c main_arg8)
def hid1 : Arr Ideal S50000x256 .f32 :=
  layer1 (hid0 m c) (argAt m c main_arg1) (argAt m c main_arg7) (argAt m c main_arg8) (argAt m c main_arg9) (argAt m c main_arg10)
def hid2 : Arr Ideal S50000x256 .f32 :=
  layer2 (hid1 m c) (argAt m c main_arg1) (argAt m c main_arg11) (argAt m c main_arg12)

/-- `Y` holds what `X` holds at every buffer outside `S`. -/
def Keeps (S : List (Ref sig .tc)) (X Y : Valuation τ sig (Elt Ideal)) : Prop :=
  ∀ r, r ∉ S → Y (Proc.devRef .tc r) = X (Proc.devRef .tc r)

theorem Keeps.trans {S T : List (Ref sig .tc)} {X Y Z : Valuation τ sig (Elt Ideal)} (h1 : Keeps S X Y) (h2 : Keeps T Y Z) :
    Keeps (S ++ T) X Z :=
  fun r hr => (h2 r fun h => hr (List.mem_append_right _ h)).trans (h1 r fun h => hr (List.mem_append_left _ h))

/-- A host stretch keeps every buffer it does not write; a kernel region keeps every buffer but its output array. -/
theorem K1 : Keeps hostOps0_W (W0 m ρ c) (W1 m ρ c) := fun _ h => StableHlo.after_of_writes_sub hostOps0 _ hostOps0_writes h
theorem K2 : Keeps [main_v14] (W1 m ρ c) (W2 m ρ c) := fun r h => by
  by_cases hw : ∃ w, Pipeline.arrRef spec0 w = r
  · obtain ⟨w, rfl⟩ := hw
    exact (W2_arr m ρ c w).trans (((dat0 (V1 m ρ) c).arrAt_in w ((by decide : ∀ w : Fin cfg0.W,
      Pipeline.arrRef spec0 w ≠ main_v14 → (cfg0.win w).isOut = false) w (mt List.mem_singleton.2 h)) _).trans (A_eq0 (V1 m ρ) c w))
  · exact W2_of_ne m ρ c r fun w e => hw ⟨w, e⟩
theorem K3 : Keeps hostOps1_W (W2 m ρ c) (W3 m ρ c) := fun _ h => StableHlo.after_of_writes_sub hostOps1 _ hostOps1_writes h
theorem K4 : Keeps hostOps1_1_W (W3 m ρ c) (W4 m ρ c) := fun _ h => StableHlo.after_of_writes_sub hostOps1_1 _ hostOps1_1_writes h
theorem K5 : Keeps hostOps1_2_W (W4 m ρ c) (W5 m ρ c) := fun _ h => StableHlo.after_of_writes_sub hostOps1_2 _ hostOps1_2_writes h
theorem K6 : Keeps [main_v23] (W5 m ρ c) (W6 m ρ c) := fun r h => by
  by_cases hw : ∃ w, Pipeline.arrRef spec1 w = r
  · obtain ⟨w, rfl⟩ := hw
    exact (W6_arr m ρ c w).trans (((dat1 (V5 m ρ) c).arrAt_in w ((by decide : ∀ w : Fin cfg1.W,
      Pipeline.arrRef spec1 w ≠ main_v23 → (cfg1.win w).isOut = false) w (mt List.mem_singleton.2 h)) _).trans (A_eq1 (V5 m ρ) c w))
  · exact W6_of_ne m ρ c r fun w e => hw ⟨w, e⟩
theorem K7 : Keeps hostOps2_W (W6 m ρ c) (W7 m ρ c) := fun _ h => StableHlo.after_of_writes_sub hostOps2 _ hostOps2_writes h
theorem K8 : Keeps [main_v34] (W7 m ρ c) (W8 m ρ c) := fun r h => by
  by_cases hw : ∃ w, Pipeline.arrRef spec2 w = r
  · obtain ⟨w, rfl⟩ := hw
    exact (W8_arr m ρ c w).trans (((dat2 (V7 m ρ) c).arrAt_in w ((by decide : ∀ w : Fin cfg2.W,
      Pipeline.arrRef spec2 w ≠ main_v34 → (cfg2.win w).isOut = false) w (mt List.mem_singleton.2 h)) _).trans (A_eq2 (V7 m ρ) c w))
  · exact W8_of_ne m ρ c r fun w e => hw ⟨w, e⟩
theorem K9 : Keeps hostOps3_W (W8 m ρ c) (W9 m ρ c) := fun _ h => StableHlo.after_of_writes_sub hostOps3 _ hostOps3_writes h
theorem K10 : Keeps hostOps3_1_W (W9 m ρ c) (W10 m ρ c) := fun _ h => StableHlo.after_of_writes_sub hostOps3_1 _ hostOps3_1_writes h
theorem K11 : Keeps hostOps3_2_W (W10 m ρ c) (W11 m ρ c) := fun _ h => StableHlo.after_of_writes_sub hostOps3_2 _ hostOps3_2_writes h
theorem K12 : Keeps [main_v43] (W11 m ρ c) (W12 m ρ c) := fun r h => by
  by_cases hw : ∃ w, Pipeline.arrRef spec3 w = r
  · obtain ⟨w, rfl⟩ := hw
    exact (W12_arr m ρ c w).trans (((dat3 (V11 m ρ) c).arrAt_in w ((by decide : ∀ w : Fin cfg3.W,
      Pipeline.arrRef spec3 w ≠ main_v43 → (cfg3.win w).isOut = false) w (mt List.mem_singleton.2 h)) _).trans (A_eq3 (V11 m ρ) c w))
  · exact W12_of_ne m ρ c r fun w e => hw ⟨w, e⟩
theorem K13 : Keeps hostOps4_W (W12 m ρ c) (W13 m ρ c) := fun _ h => StableHlo.after_of_writes_sub hostOps4 _ hostOps4_writes h
theorem K14 : Keeps [main_v54] (W13 m ρ c) (W14 m ρ c) := fun r h => by
  by_cases hw : ∃ w, Pipeline.arrRef spec4 w = r
  · obtain ⟨w, rfl⟩ := hw
    exact (W14_arr m ρ c w).trans (((dat4 (V13 m ρ) c).arrAt_in w ((by decide : ∀ w : Fin cfg4.W,
      Pipeline.arrRef spec4 w ≠ main_v54 → (cfg4.win w).isOut = false) w (mt List.mem_singleton.2 h)) _).trans (A_eq4 (V13 m ρ) c w))
  · exact W14_of_ne m ρ c r fun w e => hw ⟨w, e⟩
theorem K15 : Keeps hostOps5_W (W14 m ρ c) (W15 m ρ c) := fun _ h => StableHlo.after_of_writes_sub hostOps5 _ hostOps5_writes h
theorem K16 : Keeps [main_v56] (W15 m ρ c) (W16 m ρ c) := fun r h => by
  by_cases hw : ∃ w, Pipeline.arrRef spec5 w = r
  · obtain ⟨w, rfl⟩ := hw
    exact (W16_arr m ρ c w).trans (((dat5 (V15 m ρ) c).arrAt_in w ((by decide : ∀ w : Fin cfg5.W,
      Pipeline.arrRef spec5 w ≠ main_v56 → (cfg5.win w).isOut = false) w (mt List.mem_singleton.2 h)) _).trans (A_eq5 (V15 m ρ) c w))
  · exact W16_of_ne m ρ c r fun w e => hw ⟨w, e⟩
theorem K17 : Keeps hostOps6_W (W16 m ρ c) (W17 m ρ c) := fun _ h => StableHlo.after_of_writes_sub hostOps6 _ hostOps6_writes h

def K2_5 := (K3 m ρ c).trans ((K4 m ρ c).trans (K5 m ρ c))
def K8_11 := (K9 m ρ c).trans ((K10 m ρ c).trans (K11 m ρ c))
def K0_2 := (K1 m ρ c).trans (K2 m ρ c)
def K0_7 := (K0_2 m ρ c).trans ((K2_5 m ρ c).trans ((K6 m ρ c).trans (K7 m ρ c)))
def K0_8 := (K0_7 m ρ c).trans (K8 m ρ c)
def K0_13 := (K0_8 m ρ c).trans ((K8_11 m ρ c).trans ((K12 m ρ c).trans (K13 m ρ c)))
def K0_14 := (K0_13 m ρ c).trans (K14 m ρ c)
def K1_6 := (K2 m ρ c).trans ((K2_5 m ρ c).trans (K6 m ρ c))
def K6_12 := (K7 m ρ c).trans ((K8 m ρ c).trans ((K8_11 m ρ c).trans (K12 m ρ c)))
def K12_16 := (K13 m ρ c).trans ((K14 m ρ c).trans ((K15 m ρ c).trans (K16 m ρ c)))

theorem W1_v1 : W1 m ρ c main_v1 = edgeRow0 (argAt m c main_arg1) := host0_v1 (W0 m ρ c)
theorem W1_v3 : W1 m ρ c main_v3 = edgeRow1 (argAt m c main_arg1) := host0_v3 (W0 m ρ c)
theorem W1_v13 : W1 m ρ c main_v13 = agg128 (argAt m c main_arg0) (argAt m c main_arg1) := host0_v13 (W0 m ρ c)

theorem W2_v14 : W2 m ρ c main_v14 = act0 m c := by
  refine (W2_arr m ρ c 4).trans ((final0 (V1 m ρ) c).trans ?_)
  show mlp128 (W1 m ρ c main_arg0) (W1 m ρ c main_v13) (W1 m ρ c main_arg3) (W1 m ρ c main_arg4) = _
  rw [K1 m ρ c main_arg0 (by decide), W1_v13, K1 m ρ c main_arg3 (by decide), K1 m ρ c main_arg4 (by decide)]
  rfl

theorem W6_v23 : W6 m ρ c main_v23 = hid0 m c := by
  refine (W6_arr m ρ c 5).trans ((final1 (V5 m ρ) c).trans ?_)
  show bnormK (W5 m ρ c main_v14) (Y1 (W2 m ρ c) main_v19) (Y1 (W2 m ρ c) main_v20) (Y1 (W2 m ρ c) main_v21) (Y1 (W2 m ρ c) main_v22) = _
  rw [K2_5 m ρ c main_v14 (by decide), stats1_v19 _ shapeCasts_S256_S1x256, stats1_v20 _ shapeCasts_S256_S1x256,
    stats1_v21 _ shapeCasts_S256_S1x256, stats1_v22 _ shapeCasts_S256_S1x256, W2_v14, K0_2 m ρ c main_arg5 (by decide),
    K0_2 m ρ c main_arg6 (by decide), bnormK_shapeCast]
  rfl

theorem W7_v33 : W7 m ρ c main_v33 = agg256 (hid0 m c) (argAt m c main_arg1) :=
  (host2_v33 (W6 m ρ c)).trans (by
    rw [W6_v23, K1_6 m ρ c main_v1 (by decide), W1_v1, K1_6 m ρ c main_v3 (by decide), W1_v3]; rfl)

theorem W8_v34 : W8 m ρ c main_v34 = act1 m c := by
  refine (W8_arr m ρ c 4).trans ((final2 (V7 m ρ) c).trans ?_)
  show mlp256 (W7 m ρ c main_v23) (W7 m ρ c main_v33) (W7 m ρ c main_arg7) (W7 m ρ c main_arg8) = _
  rw [K7 m ρ c main_v23 (by decide), W6_v23, W7_v33, K0_7 m ρ c main_arg7 (by decide), K0_7 m ρ c main_arg8 (by decide)]
  rfl

theorem W12_v43 : W12 m ρ c main_v43 = hid1 m c := by
  refine (W12_arr m ρ c 5).trans ((final3 (V11 m ρ) c).trans ?_)
  show bnormK (W11 m ρ c main_v34) (Y3 (W8 m ρ c) main_v39) (Y3 (W8 m ρ c) main_v40) (Y3 (W8 m ρ c) main_v41) (Y3 (W8 m ρ c) main_v42) = _
  rw [K8_11 m ρ c main_v34 (by decide), stats3_v39 _ shapeCasts_S256_S1x256, stats3_v40 _ shapeCasts_S256_S1x256,
    stats3_v41 _ shapeCasts_S256_S1x256, stats3_v42 _ shapeCasts_S256_S1x256, W8_v34, K0_8 m ρ c main_arg9 (by decide),
    K0_8 m ρ c main_arg10 (by decide), bnormK_shapeCast]
  rfl

theorem W13_v53 : W13 m ρ c main_v53 = agg256 (hid1 m c) (argAt m c main_arg1) :=
  (host4_v53 (W12 m ρ c)).trans (by
    rw [W12_v43, K6_12 m ρ c main_v1 (by decide), K1_6 m ρ c main_v1 (by decide), W1_v1,
      K6_12 m ρ c main_v3 (by decide), K1_6 m ρ c main_v3 (by decide), W1_v3]; rfl)

theorem W14_v54 : W14 m ρ c main_v54 = hid2 m c := by
  refine (W14_arr m ρ c 4).trans ((final4 (V13 m ρ) c).trans ?_)
  show mlp256nr (W13 m ρ c main_v43) (W13 m ρ c main_v53) (W13 m ρ c main_arg11) (W13 m ρ c main_arg12) = _
  rw [K13 m ρ c main_v43 (by decide), W12_v43, W13_v53, K0_13 m ρ c main_arg11 (by decide), K0_13 m ρ c main_arg12 (by decide)]
  rfl

theorem W15_v55 : W15 m ρ c main_v55 = shapeCast S50000x1 (argAt m c main_arg2) shapeCasts_S50000_S50000x1 :=
  (host5_v55 (W14 m ρ c)).trans (by rw [K0_14 m ρ c main_arg2 (by decide)])

theorem W16_v56 : W16 m ρ c main_v56 = pool (hid2 m c) (argAt m c main_arg2) := by
  refine (W16_arr m ρ c 2).trans ((final5 (V15 m ρ) c).trans ?_)
  show poolK (W15 m ρ c main_v54) (W15 m ρ c main_v55) = _
  rw [K15 m ρ c main_v54 (by decide), W14_v54, W15_v55, shapeCast_ids]
  rfl

theorem W17_v57 : W17 m ρ c main_v57 = cat3 (hid0 m c) (hid1 m c) (hid2 m c) :=
  (host6_v57 (W16 m ρ c)).trans (by
    rw [K12_16 m ρ c main_v23 (by decide), K6_12 m ρ c main_v23 (by decide), W6_v23, K12_16 m ρ c main_v43 (by decide), W12_v43,
      K16 m ρ c main_v54 (by decide), K15 m ρ c main_v54 (by decide), W14_v54])

theorem kernel_out0 : W17 m ρ c (Proc.devRef .tc main_v56)
    = Cert.ReferenceIdeal.Hand.out0 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) :=
  ((K17 m ρ c main_v56 (by decide)).trans (W16_v56 m ρ c)).trans rfl

theorem kernel_out1 : W17 m ρ c (Proc.devRef .tc main_v57)
    = Cert.ReferenceIdeal.Hand.out1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) :=
  (W17_v57 m ρ c).trans rfl

end Chain

end Cert.KernelIdeal.Hand

end
-- ==== Proof.Ref.Run.lean ====
import proofs.«428498_j27358941675990_1_alg».proof.ReferenceIdeal
import proofs.«428498_j27358941675990_1_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem

variable {F : FTy → Type} [FloatOps F]

-- A call of the rectifier is its three operations over that call's own buffers.
abbrev reluOps (x : StableHlo.TRef sig ⟨S50000x256, .f32⟩) (φ : fn_relu.Bufs) : List (HloOp τ sig (Elt F)) :=
  [ StableHlo.TRef.nullary φ.cst (constant S_ .f32 0x00000000#32),
    StableHlo.TRef.unary φ.cst φ.v0 (broadcastInDim S50000x256 ![] bcast_S_S50000x256),
    StableHlo.TRef.binary x φ.v0 φ.v1 maximumf ]

-- A call of the variance routine is its twenty-two operations over that call's own buffers.
abbrev varOps (a : StableHlo.TRef sig ⟨S50000x256, .f32⟩) (c : StableHlo.TRef sig ⟨S_, .i32⟩) (φ : fn_var.Bufs) : List (HloOp τ sig (Elt F)) :=
  [ StableHlo.TRef.nullary φ.cst (constant S_ .f32 0x00000000#32),
    StableHlo.TRef.binary a φ.cst φ.v0 (fun x v => Host.reduceAdd x v reducesTo_S50000x256_S256_d0 h_S_),
    StableHlo.TRef.unary φ.v0 φ.v1 (broadcastInDim S1x256 ![1] bcast_S256_S1x256_1),
    StableHlo.TRef.nullary φ.cst_0 (constant S_ .f32 0x47435000#32),
    StableHlo.TRef.unary φ.cst_0 φ.v2 (broadcastInDim S1x256 ![] bcast_S_S1x256),
    StableHlo.TRef.binary φ.v1 φ.v2 φ.v3 Host.divf,
    StableHlo.TRef.unary φ.v3 φ.v4 (broadcastInDim S50000x256 ![0, 1] bcast_S1x256_S50000x256_0_1),
    StableHlo.TRef.binary a φ.v4 φ.v5 subf,
    StableHlo.TRef.binary φ.v5 φ.v5 φ.v6 mulf,
    StableHlo.TRef.unary c φ.v7 (sitofp .f32),
    StableHlo.TRef.nullary φ.cst_1 (constant S_ .f32 0x47435000#32),
    StableHlo.TRef.binary φ.cst_1 φ.v7 φ.v8 subf,
    StableHlo.TRef.nullary φ.cst_2 (constant S_ .f32 0x00000000#32),
    StableHlo.TRef.binary φ.v6 φ.cst_2 φ.v9 (fun x v => Host.reduceAdd x v reducesTo_S50000x256_S256_d0 h_S_),
    StableHlo.TRef.unary φ.v8 φ.v10 (broadcastInDim S256 ![] bcast_S_S256),
    StableHlo.TRef.binary φ.v9 φ.v10 φ.v11 Host.divf,
    StableHlo.TRef.nullary φ.cst_3 (constant S_ .f32 0x00000000#32),
    StableHlo.TRef.binary φ.v8 φ.cst_3 φ.v12 (cmpf .ogt),
    StableHlo.TRef.nullary φ.cst_4 (constant S_ .f32 0x7FC00000#32),
    StableHlo.TRef.unary φ.cst_4 φ.call0.v0 id,
    StableHlo.TRef.unary φ.call0.v0 φ.call0.v1 (broadcastInDim S256 ![] bcast_S_S256),
    StableHlo.TRef.ternary φ.v12 φ.v11 φ.call0.v1 φ.call0.v2 (fun p a b => select (broadcastInDim S256 ![] bcast_S_S256 p) a b) ]

abbrev opsA : List (HloOp τ sig (Elt F)) :=
  [ StableHlo.unary main_arg1 main_v0 (extractStridedSlice S1x800000 ![0, 0] · slices_S2x800000_S1x800000_0_0),
    StableHlo.reshape main_v0 main_v1 rfl shapeCasts_S1x800000_S800000,
    StableHlo.unary main_arg1 main_v2 (extractStridedSlice S1x800000 ![1, 0] · slices_S2x800000_S1x800000_1_0),
    StableHlo.reshape main_v2 main_v3 rfl shapeCasts_S1x800000_S800000,
    StableHlo.nullary main_c (constantI S_ 32 0#32),
    StableHlo.unary main_c main_v4 (broadcastInDim S800000 ![] bcast_S_S800000),
    StableHlo.binary main_v1 main_v4 main_v5 (cmpi .slt),
    StableHlo.nullary main_c_0 (constantI S_ 32 50000#32),
    StableHlo.unary main_c_0 main_v6 (broadcastInDim S800000 ![] bcast_S_S800000),
    StableHlo.binary main_v1 main_v6 main_v7 addi,
    StableHlo.ternary main_v5 main_v7 main_v1 main_v8 select,
    StableHlo.unary main_v8 main_v9 (broadcastInDim S800000x1 ![0] bcast_S800000_S800000x1_0),
    StableHlo.binary main_arg0 main_v9 main_v10 (Host.gather gather_S50000x128_S800000x1_S800000x128_1_0_n_n_0_1_1128),
    StableHlo.nullary main_cst (constant S_ .f32 0x00000000#32),
    StableHlo.unary main_cst main_v11 (broadcastInDim S50000x128 ![] bcast_S_S50000x128),
    StableHlo.unary main_v3 main_v12 (broadcastInDim S800000x1 ![0] bcast_S800000_S800000x1_0),
    StableHlo.ternary main_v11 main_v12 main_v10 main_v13 (Host.scatterAdd scatter_S50000x128_S800000x1_S800000x128_1_0_0_1),
    StableHlo.binary main_arg0 main_v13 main_v14 addf,
    StableHlo.binary main_v14 main_arg3 main_v15 (Host.dotGeneral dot_S50000x128_S128x256_S50000x256_1_0_0_1_n_n none) ]
    ++ reluOps (.of main_v15) main_call0
    ++ [ StableHlo.binary main_v16 main_arg4 main_v17 (Host.dotGeneral dot_S50000x256_S256x256_S50000x256_1_0_0_1_n_n none) ]
    ++ reluOps (.of main_v17) main_call1

abbrev opsB : List (HloOp τ sig (Elt F)) :=
  [ StableHlo.nullary main_cst_1 (constant S_ .f32 0x00000000#32),
    StableHlo.binary main_v18 main_cst_1 main_v19 (fun x v => Host.reduceAdd x v reducesTo_S50000x256_S256_d0 h_S_),
    StableHlo.nullary main_cst_2 (constant S_ .f32 0x47435000#32),
    StableHlo.unary main_cst_2 main_v20 (broadcastInDim S256 ![] bcast_S_S256),
    StableHlo.binary main_v19 main_v20 main_v21 Host.divf,
    StableHlo.nullary main_c_3 (constantI S_ 32 0#32) ]
    ++ varOps (.of main_v18) (.of main_c_3) main_call2

abbrev opsC : List (HloOp τ sig (Elt F)) :=
  [ StableHlo.unary main_v21 main_v23 (broadcastInDim S1x256 ![1] bcast_S256_S1x256_1),
    StableHlo.unary main_v23 main_v24 (broadcastInDim S50000x256 ![0, 1] bcast_S1x256_S50000x256_0_1),
    StableHlo.binary main_v18 main_v24 main_v25 subf,
    StableHlo.nullary main_cst_4 (constant S_ .f32 0x3727C5AC#32),
    StableHlo.unary main_cst_4 main_v26 (broadcastInDim S256 ![] bcast_S_S256),
    StableHlo.binary main_v22 main_v26 main_v27 addf,
    StableHlo.unary main_v27 main_v28 Host.rsqrt,
    StableHlo.unary main_v28 main_v29 (broadcastInDim S1x256 ![1] bcast_S256_S1x256_1),
    StableHlo.unary main_v29 main_v30 (broadcastInDim S50000x256 ![0, 1] bcast_S1x256_S50000x256_0_1),
    StableHlo.binary main_v25 main_v30 main_v31 mulf,
    StableHlo.unary main_arg5 main_v32 (broadcastInDim S1x256 ![1] bcast_S256_S1x256_1),
    StableHlo.unary main_v32 main_v33 (broadcastInDim S50000x256 ![0, 1] bcast_S1x256_S50000x256_0_1),
    StableHlo.binary main_v31 main_v33 main_v34 mulf,
    StableHlo.unary main_arg6 main_v35 (broadcastInDim S1x256 ![1] bcast_S256_S1x256_1),
    StableHlo.unary main_v35 main_v36 (broadcastInDim S50000x256 ![0, 1] bcast_S1x256_S50000x256_0_1),
    StableHlo.binary main_v34 main_v36 main_v37 addf,
    StableHlo.nullary main_c_5 (constantI S_ 32 0#32),
    StableHlo.unary main_c_5 main_v38 (broadcastInDim S800000 ![] bcast_S_S800000),
    StableHlo.binary main_v1 main_v38 main_v39 (cmpi .slt),
    StableHlo.nullary main_c_6 (constantI S_ 32 50000#32),
    StableHlo.unary main_c_6 main_v40 (broadcastInDim S800000 ![] bcast_S_S800000),
    StableHlo.binary main_v1 main_v40 main_v41 addi,
    StableHlo.ternary main_v39 main_v41 main_v1 main_v42 select,
    StableHlo.unary main_v42 main_v43 (broadcastInDim S800000x1 ![0] bcast_S800000_S800000x1_0),
    StableHlo.binary main_v37 main_v43 main_v44 (Host.gather gather_S50000x256_S800000x1_S800000x256_1_0_n_n_0_1_1256),
    StableHlo.nullary main_cst_7 (constant S_ .f32 0x00000000#32),
    StableHlo.unary main_cst_7 main_v45 (broadcastInDim S50000x256 ![] bcast_S_S50000x256),
    StableHlo.unary main_v3 main_v46 (broadcastInDim S800000x1 ![0] bcast_S800000_S800000x1_0),
    StableHlo.ternary main_v45 main_v46 main_v44 main_v47 (Host.scatterAdd scatter_S50000x256_S800000x1_S800000x256_1_0_0_1),
    StableHlo.binary main_v37 main_v47 main_v48 addf,
    StableHlo.binary main_v48 main_arg7 main_v49 (Host.dotGeneral dot_S50000x256_S256x256_S50000x256_1_0_0_1_n_n none) ]

abbrev opsD : List (HloOp τ sig (Elt F)) :=
  reluOps (.of main_v49) main_call3
    ++ [ StableHlo.binary main_v50 main_arg8 main_v51 (Host.dotGeneral dot_S50000x256_S256x256_S50000x256_1_0_0_1_n_n none) ]
    ++ reluOps (.of main_v51) main_call4
    ++ [ StableHlo.nullary main_cst_8 (constant S_ .f32 0x00000000#32),
    StableHlo.binary main_v52 main_cst_8 main_v53 (fun x v => Host.reduceAdd x v reducesTo_S50000x256_S256_d0 h_S_),
    StableHlo.nullary main_cst_9 (constant S_ .f32 0x47435000#32),
    StableHlo.unary main_cst_9 main_v54 (broadcastInDim S256 ![] bcast_S_S256),
    StableHlo.binary main_v53 main_v54 main_v55 Host.divf,
    StableHlo.nullary main_c_10 (constantI S_ 32 0#32) ]
    ++ varOps (.of main_v52) (.of main_c_10) main_call5

abbrev opsE : List (HloOp τ sig (Elt F)) :=
  [ StableHlo.unary main_v55 main_v57 (broadcastInDim S1x256 ![1] bcast_S256_S1x256_1),
    StableHlo.unary main_v57 main_v58 (broadcastInDim S50000x256 ![0, 1] bcast_S1x256_S50000x256_0_1),
    StableHlo.binary main_v52 main_v58 main_v59 subf,
    StableHlo.nullary main_cst_11 (constant S_ .f32 0x3727C5AC#32),
    StableHlo.unary main_cst_11 main_v60 (broadcastInDim S256 ![] bcast_S_S256),
    StableHlo.binary main_v56 main_v60 main_v61 addf,
    StableHlo.unary main_v61 main_v62 Host.rsqrt,
    StableHlo.unary main_v62 main_v63 (broadcastInDim S1x256 ![1] bcast_S256_S1x256_1),
    StableHlo.unary main_v63 main_v64 (broadcastInDim S50000x256 ![0, 1] bcast_S1x256_S50000x256_0_1),
    StableHlo.binary main_v59 main_v64 main_v65 mulf,
    StableHlo.unary main_arg9 main_v66 (broadcastInDim S1x256 ![1] bcast_S256_S1x256_1),
    StableHlo.unary main_v66 main_v67 (broadcastInDim S50000x256 ![0, 1] bcast_S1x256_S50000x256_0_1),
    StableHlo.binary main_v65 main_v67 main_v68 mulf,
    StableHlo.unary main_arg10 main_v69 (broadcastInDim S1x256 ![1] bcast_S256_S1x256_1),
    StableHlo.unary main_v69 main_v70 (broadcastInDim S50000x256 ![0, 1] bcast_S1x256_S50000x256_0_1),
    StableHlo.binary main_v68 main_v70 main_v71 addf,
    StableHlo.nullary main_c_12 (constantI S_ 32 0#32),
    StableHlo.unary main_c_12 main_v72 (broadcastInDim S800000 ![] bcast_S_S800000),
    StableHlo.binary main_v1 main_v72 main_v73 (cmpi .slt),
    StableHlo.nullary main_c_13 (constantI S_ 32 50000#32),
    StableHlo.unary main_c_13 main_v74 (broadcastInDim S800000 ![] bcast_S_S800000),
    StableHlo.binary main_v1 main_v74 main_v75 addi,
    StableHlo.ternary main_v73 main_v75 main_v1 main_v76 select,
    StableHlo.unary main_v76 main_v77 (broadcastInDim S800000x1 ![0] bcast_S800000_S800000x1_0),
    StableHlo.binary main_v71 main_v77 main_v78 (Host.gather gather_S50000x256_S800000x1_S800000x256_1_0_n_n_0_1_1256),
    StableHlo.nullary main_cst_14 (constant S_ .f32 0x00000000#32),
    StableHlo.unary main_cst_14 main_v79 (broadcastInDim S50000x256 ![] bcast_S_S50000x256),
    StableHlo.unary main_v3 main_v80 (broadcastInDim S800000x1 ![0] bcast_S800000_S800000x1_0),
    StableHlo.ternary main_v79 main_v80 main_v78 main_v81 (Host.scatterAdd scatter_S50000x256_S800000x1_S800000x256_1_0_0_1),
    StableHlo.binary main_v71 main_v81 main_v82 addf,
    StableHlo.binary main_v82 main_arg11 main_v83 (Host.dotGeneral dot_S50000x256_S256x256_S50000x256_1_0_0_1_n_n none) ]

abbrev opsG : List (HloOp τ sig (Elt F)) :=
  reluOps (.of main_v83) main_call6
    ++ [ StableHlo.binary main_v84 main_arg12 main_v85 (Host.dotGeneral dot_S50000x256_S256x256_S50000x256_1_0_0_1_n_n none),
    StableHlo.nullary main_cst_15 (constant S_ .f32 0x00000000#32),
    StableHlo.unary main_cst_15 main_v86 (broadcastInDim S256x256 ![] bcast_S_S256x256),
    StableHlo.unary main_arg2 main_v87 (broadcastInDim S50000x1 ![0] bcast_S50000_S50000x1_0),
    StableHlo.ternary main_v86 main_v87 main_v85 main_v88 (Host.scatterAdd scatter_S256x256_S50000x1_S50000x256_1_0_0_1),
    StableHlo.nary ![main_v37, main_v71, main_v85] main_v89 (fun u => concatenate S50000x768 1 [⟨S50000x256, u 0⟩, ⟨S50000x256, u 1⟩, ⟨S50000x256, u 2⟩] concatenates_S50000x256_S50000x256_S50000x256_S50000x768_d1) ]

abbrev ops0 : List (HloOp τ sig (Elt F)) := opsA ++ (opsB ++ opsC)
abbrev ops1 : List (HloOp τ sig (Elt F)) := opsD ++ (opsE ++ opsG)
abbrev ops : List (HloOp τ sig (Elt F)) := ops0 ++ ops1

theorem main_part0_eq (d : Dev nD) : main_part0 (F := F) d = StableHlo.seq ops0 := rfl

theorem main_part1_eq (d : Dev nD) : main_part1 (F := F) d = StableHlo.seq ops1 := rfl

theorem main_eq (d : Dev nD) : main (F := F) d = StableHlo.seq ops := by
  rw [show (ops : List (HloOp τ sig (Elt F))) = ops0 ++ ops1 from rfl, StableHlo.seq_append, ← main_part0_eq d, ← main_part1_eq d]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ StableHlo.tcRefs τ sig := by
  and_intros <;> first | (with_reducible first | exact StableHlo.nullary_bufs_sub .. | exact StableHlo.unary_bufs_sub .. | exact StableHlo.binary_bufs_sub .. | exact StableHlo.ternary_bufs_sub .. | exact StableHlo.reshape_bufs_sub ..) | exact StableHlo.nary_bufs_sub ..

theorem ops_fresh : (ops : List (HloOp τ sig (Elt F))).Forall fun op => op.fresh = ∅ := by and_intros <;> rfl

theorem run (m : (ℓ : Loc nD τ sig) → Buf (Elt F) ℓ) (ρ : Dev nD → PrngReg) :
    θ_run defs (onTc (τ := τ) (main (F := F))) ⟨m, fun _ => 0, ρ⟩ (fun r => ∀ (d : Dev nD) (b : Ref sig .tc),
      r.2.mem ((d.tc : Thread nD τ).loc b) = StableHlo.after ops (StableHlo.launchContents m d) (Proc.devRef .tc b)) :=
  StableHlo.run_seq scopedRefs_eq scopedSems_eq defs main (fun _ => ops) main_eq (fun _ => ops_sub) m ρ
    (fun _ => List.forall_iff_forall_mem.mp ops_fresh)

-- An operation whose one written buffer has its index between lo and hi.
def WritesIn (lo hi : ℕ) (op : HloOp τ sig (Elt F)) : Prop :=
  ∃ y : Ref sig .tc, op.writes = {Proc.devRef (τ := τ) .tc y} ∧ lo ≤ y.idx.val ∧ y.idx.val ≤ hi

-- Equal references have equal indices, so a buffer indexed outside lo … hi is written by none of the line.
theorem keep_of_writesIn {lo hi : ℕ} {l : List (HloOp τ sig (Elt F))} (h : l.Forall (WritesIn lo hi)) (V : Valuation τ sig (Elt F))
    {r : Ref sig .tc} (hr : r.idx.val < lo ∨ hi < r.idx.val) :
    StableHlo.after l V (no_index (Proc.devRef .tc r)) = V (Proc.devRef .tc r) :=
  StableHlo.after_of_forall_not_mem l V fun op hop => by
    obtain ⟨y, hw, hlo, hhi⟩ := List.forall_iff_forall_mem.mp h op hop
    rw [hw, Finset.mem_singleton]
    intro e
    have e' : r = y := Proc.devRef_injective _ e
    subst e'
    omega

-- Each of the six pieces writes one run of consecutive buffers.
theorem pieces_in : (opsA (F := F)).Forall (WritesIn 13 38) ∧ (opsB (F := F)).Forall (WritesIn 39 66) ∧ (opsC (F := F)).Forall (WritesIn 67 97)
    ∧ (opsD (F := F)).Forall (WritesIn 98 132) ∧ (opsE (F := F)).Forall (WritesIn 133 163) ∧ (opsG (F := F)).Forall (WritesIn 164 172) := by
  and_intros <;> exact ⟨_, rfl, by decide, by decide⟩

theorem after_ops (V : Valuation τ sig (Elt F)) :
    StableHlo.after ops V
      = StableHlo.after opsG (StableHlo.after opsE (StableHlo.after opsD (StableHlo.after opsC (StableHlo.after opsB (StableHlo.after opsA V))))) := by
  simp only [ops, ops0, ops1, StableHlo.after_append]

-- The pieces write indices 13 … 172 only, so a buffer of index below 13 ends at its launch contents.
theorem arg_kept (m : (ℓ : Loc nD τ sig) → Buf (Elt F) ℓ) (d : Dev nD) {r : Ref sig .tc} (hr : r.idx.val < 13) :
    StableHlo.after ops (StableHlo.launchContents m d) (Proc.devRef .tc r) = m ((d.tc : Thread nD τ).loc r) := by
  have h := pieces_in (F := F)
  rw [after_ops, keep_of_writesIn h.2.2.2.2.2, keep_of_writesIn h.2.2.2.2.1, keep_of_writesIn h.2.2.2.1, keep_of_writesIn h.2.2.1,
    keep_of_writesIn h.2.1, keep_of_writesIn h.1] <;> first | rfl | exact .inl (by omega)

end Cert.ReferenceIdeal.Hand

end
-- ==== Proof.Ref.Val.lean ====
import proofs.«428498_j27358941675990_1_alg».proof.Proof.Ref.Run
import proofs.«428498_j27358941675990_1_alg».proof.Proof.Ref.Stages

noncomputable section

namespace Cert.ReferenceIdeal.Hand

open Cert.ReferenceIdeal Idealize.ShloMosaic Idealize.ShloMosaic.TcCoe Idealize.SL.Sem

variable {F : FTy → Type} [FloatOps F]

def pre256 (h : Arr F S50000x256 .f32) (s d : Arr F S800000 .i32) (w1 : Arr F S256x256 .f32) : Arr F S50000x256 .f32 :=
  Host.dotGeneral dot_S50000x256_S256x256_S50000x256_1_0_0_1_n_n none (addf h (agg256of h s d)) w1

def post256 (p : Arr F S50000x256 .f32) (w2 : Arr F S256x256 .f32) : Arr F S50000x256 .f32 :=
  Host.dotGeneral dot_S50000x256_S256x256_S50000x256_1_0_0_1_n_n none (relu p) w2

theorem cat_result (W : Valuation τ sig (Elt F)) :
    (StableHlo.nary ![main_v37, main_v71, main_v85] main_v89 (fun u => concatenate S50000x768 1 [⟨S50000x256, u 0⟩, ⟨S50000x256, u 1⟩, ⟨S50000x256, u 2⟩] Gen.concatenates_S50000x256_S50000x256_S50000x256_S50000x768_d1) : HloOp τ sig (Elt F)).result W (Proc.devRef .tc main_v89)
      = cat3 (W (Proc.devRef .tc main_v37)) (W (Proc.devRef .tc main_v71)) (W (Proc.devRef .tc main_v85)) := by
  rw [StableHlo.nary_result]; rfl

theorem A_v1 (V : Valuation τ sig (Elt F)) :
    StableHlo.after opsA V (no_index (Proc.devRef .tc main_v1))
      = edgeRow0 (V (Proc.devRef .tc main_arg1)) := by
  simp only [opsA, StableHlo.after_append]
  after_results_simp <;> (try simp only [StableHlo.TRef.ofBuf, StableHlo.TRef.toBuf, cast_eq]) <;> rfl

theorem A_v3 (V : Valuation τ sig (Elt F)) :
    StableHlo.after opsA V (no_index (Proc.devRef .tc main_v3))
      = edgeRow1 (V (Proc.devRef .tc main_arg1)) := by
  simp only [opsA, StableHlo.after_append]
  after_results_simp <;> (try simp only [StableHlo.TRef.ofBuf, StableHlo.TRef.toBuf, cast_eq]) <;> rfl

theorem A_v18 (V : Valuation τ sig (Elt F)) :
    StableHlo.after opsA V (no_index (Proc.devRef .tc main_v18))
      = mlp128 (V (Proc.devRef .tc main_arg0)) (agg128 (V (Proc.devRef .tc main_arg0)) (V (Proc.devRef .tc main_arg1))) (V (Proc.devRef .tc main_arg3)) (V (Proc.devRef .tc main_arg4)) := by
  simp only [opsA, StableHlo.after_append]
  after_results_simp <;> (try simp only [StableHlo.TRef.ofBuf, StableHlo.TRef.toBuf, cast_eq]) <;> rfl

theorem B_v21 (V : Valuation τ sig (Elt F)) :
    StableHlo.after opsB V (no_index (Proc.devRef .tc main_v21))
      = mean256 (V (Proc.devRef .tc main_v18)) := by
  simp only [opsB, StableHlo.after_append]
  after_results_simp <;> (try simp only [StableHlo.TRef.ofBuf, StableHlo.TRef.toBuf, cast_eq]) <;> rfl

theorem B_v22 (V : Valuation τ sig (Elt F)) :
    StableHlo.after opsB V (no_index (Proc.devRef .tc main_v22))
      = var256 (V (Proc.devRef .tc main_v18)) := by
  simp only [opsB, StableHlo.after_append]
  after_results_simp <;> (try simp only [StableHlo.TRef.ofBuf, StableHlo.TRef.toBuf, cast_eq]) <;> rfl

theorem C_v37 (V : Valuation τ sig (Elt F)) :
    StableHlo.after opsC V (no_index (Proc.devRef .tc main_v37))
      = bnorm (V (Proc.devRef .tc main_v18)) (V (Proc.devRef .tc main_v21)) (V (Proc.devRef .tc main_v22)) (V (Proc.devRef .tc main_arg5)) (V (Proc.devRef .tc main_arg6)) := by
  after_results_simp <;> (try simp only [StableHlo.TRef.ofBuf, StableHlo.TRef.toBuf, cast_eq]) <;> rfl

theorem C_v49 (V : Valuation τ sig (Elt F)) :
    StableHlo.after opsC V (no_index (Proc.devRef .tc main_v49))
      = pre256 (bnorm (V (Proc.devRef .tc main_v18)) (V (Proc.devRef .tc main_v21)) (V (Proc.devRef .tc main_v22)) (V (Proc.devRef .tc main_arg5)) (V (Proc.devRef .tc main_arg6))) (V (Proc.devRef .tc main_v1)) (V (Proc.devRef .tc main_v3)) (V (Proc.devRef .tc main_arg7)) := by
  after_results_simp <;> (try simp only [StableHlo.TRef.ofBuf, StableHlo.TRef.toBuf, cast_eq]) <;> rfl

theorem D_v52 (V : Valuation τ sig (Elt F)) :
    StableHlo.after opsD V (no_index (Proc.devRef .tc main_v52))
      = relu (post256 (V (Proc.devRef .tc main_v49)) (V (Proc.devRef .tc main_arg8))) := by
  simp only [opsD, StableHlo.after_append]
  after_results_simp <;> (try simp only [StableHlo.TRef.ofBuf, StableHlo.TRef.toBuf, cast_eq]) <;> rfl

theorem D_v55 (V : Valuation τ sig (Elt F)) :
    StableHlo.after opsD V (no_index (Proc.devRef .tc main_v55))
      = mean256 (relu (post256 (V (Proc.devRef .tc main_v49)) (V (Proc.devRef .tc main_arg8)))) := by
  simp only [opsD, StableHlo.after_append]
  after_results_simp <;> (try simp only [StableHlo.TRef.ofBuf, StableHlo.TRef.toBuf, cast_eq]) <;> rfl

theorem D_v56 (V : Valuation τ sig (Elt F)) :
    StableHlo.after opsD V (no_index (Proc.devRef .tc main_v56))
      = var256 (relu (post256 (V (Proc.devRef .tc main_v49)) (V (Proc.devRef .tc main_arg8)))) := by
  simp only [opsD, StableHlo.after_append]
  after_results_simp <;> (try simp only [StableHlo.TRef.ofBuf, StableHlo.TRef.toBuf, cast_eq]) <;> rfl

theorem E_v71 (V : Valuation τ sig (Elt F)) :
    StableHlo.after opsE V (no_index (Proc.devRef .tc main_v71))
      = bnorm (V (Proc.devRef .tc main_v52)) (V (Proc.devRef .tc main_v55)) (V (Proc.devRef .tc main_v56)) (V (Proc.devRef .tc main_arg9)) (V (Proc.devRef .tc main_arg10)) := by
  after_results_simp <;> (try simp only [StableHlo.TRef.ofBuf, StableHlo.TRef.toBuf, cast_eq]) <;> rfl

theorem E_v83 (V : Valuation τ sig (Elt F)) :
    StableHlo.after opsE V (no_index (Proc.devRef .tc main_v83))
      = pre256 (bnorm (V (Proc.devRef .tc main_v52)) (V (Proc.devRef .tc main_v55)) (V (Proc.devRef .tc main_v56)) (V (Proc.devRef .tc main_arg9)) (V (Proc.devRef .tc main_arg10))) (V (Proc.devRef .tc main_v1)) (V (Proc.devRef .tc main_v3)) (V (Proc.devRef .tc main_arg11)) := by
  after_results_simp <;> (try simp only [StableHlo.TRef.ofBuf, StableHlo.TRef.toBuf, cast_eq]) <;> rfl

theorem G_v88 (V : Valuation τ sig (Elt F)) :
    StableHlo.after opsG V (no_index (Proc.devRef .tc main_v88))
      = pool (post256 (V (Proc.devRef .tc main_v83)) (V (Proc.devRef .tc main_arg12))) (V (Proc.devRef .tc main_arg2)) := by
  simp only [opsG, StableHlo.after_append]
  after_results_simp <;> (try simp only [StableHlo.TRef.ofBuf, StableHlo.TRef.toBuf, cast_eq]) <;> rfl

theorem G_v89 (V : Valuation τ sig (Elt F)) :
    StableHlo.after opsG V (no_index (Proc.devRef .tc main_v89))
      = cat3 (V (Proc.devRef .tc main_v37)) (V (Proc.devRef .tc main_v71)) (post256 (V (Proc.devRef .tc main_v83)) (V (Proc.devRef .tc main_arg12))) := by
  simp only [opsG, StableHlo.after_append]
  simp only [StableHlo.after_cons, StableHlo.after_nil]
  rw [cat_result]
  after_results_simp <;> (try simp only [StableHlo.TRef.ofBuf, StableHlo.TRef.toBuf, cast_eq]) <;> rfl

theorem out0_eq (m : (ℓ : Loc nD τ sig) → Buf (Elt F) ℓ) (d : Dev nD) :
    StableHlo.after ops (StableHlo.launchContents m d) (Proc.devRef .tc main_v88)
      = out0 (m ((d.tc : Thread nD τ).loc main_arg0))
          (m ((d.tc : Thread nD τ).loc main_arg1))
          (m ((d.tc : Thread nD τ).loc main_arg2))
          (m ((d.tc : Thread nD τ).loc main_arg3))
          (m ((d.tc : Thread nD τ).loc main_arg4))
          (m ((d.tc : Thread nD τ).loc main_arg5))
          (m ((d.tc : Thread nD τ).loc main_arg6))
          (m ((d.tc : Thread nD τ).loc main_arg7))
          (m ((d.tc : Thread nD τ).loc main_arg8))
          (m ((d.tc : Thread nD τ).loc main_arg9))
          (m ((d.tc : Thread nD τ).loc main_arg10))
          (m ((d.tc : Thread nD τ).loc main_arg11))
          (m ((d.tc : Thread nD τ).loc main_arg12)) := by
  have h := pieces_in (F := F)
  rw [after_ops]
  simp (disch := decide) only [G_v88, G_v89, E_v71, E_v83, D_v52, D_v55, D_v56, C_v37, C_v49, B_v21, B_v22, A_v18, A_v1, A_v3, keep_of_writesIn h.2.2.2.2.1, keep_of_writesIn h.2.2.2.1, keep_of_writesIn h.2.2.1, keep_of_writesIn h.2.1, keep_of_writesIn h.1]
  rfl

theorem out1_eq (m : (ℓ : Loc nD τ sig) → Buf (Elt F) ℓ) (d : Dev nD) :
    StableHlo.after ops (StableHlo.launchContents m d) (Proc.devRef .tc main_v89)
      = out1 (m ((d.tc : Thread nD τ).loc main_arg0))
          (m ((d.tc : Thread nD τ).loc main_arg1))
          (m ((d.tc : Thread nD τ).loc main_arg2))
          (m ((d.tc : Thread nD τ).loc main_arg3))
          (m ((d.tc : Thread nD τ).loc main_arg4))
          (m ((d.tc : Thread nD τ).loc main_arg5))
          (m ((d.tc : Thread nD τ).loc main_arg6))
          (m ((d.tc : Thread nD τ).loc main_arg7))
          (m ((d.tc : Thread nD τ).loc main_arg8))
          (m ((d.tc : Thread nD τ).loc main_arg9))
          (m ((d.tc : Thread nD τ).loc main_arg10))
          (m ((d.tc : Thread nD τ).loc main_arg11))
          (m ((d.tc : Thread nD τ).loc main_arg12)) := by
  have h := pieces_in (F := F)
  rw [after_ops]
  simp (disch := decide) only [G_v88, G_v89, E_v71, E_v83, D_v52, D_v55, D_v56, C_v37, C_v49, B_v21, B_v22, A_v18, A_v1, A_v3, keep_of_writesIn h.2.2.2.2.1, keep_of_writesIn h.2.2.2.1, keep_of_writesIn h.2.2.1, keep_of_writesIn h.2.1, keep_of_writesIn h.1]
  rfl

end Cert.ReferenceIdeal.Hand

end
-- ==== Proof.lean ====
import proofs.«428498_j27358941675990_1_alg».proof.Defs
import proofs.«428498_j27358941675990_1_alg».proof.Proof.Gen.Kernel
import proofs.«428498_j27358941675990_1_alg».proof.Proof.Gen.KernelIdeal
import proofs.«428498_j27358941675990_1_alg».proof.Proof.Gen.ReferenceIdeal
import proofs.«428498_j27358941675990_1_alg».proof.Proof.Gen.Pre_finite_inputs
import proofs.«428498_j27358941675990_1_alg».proof.Proof.KB.Run
import proofs.«428498_j27358941675990_1_alg».proof.Proof.KI.Run
import proofs.«428498_j27358941675990_1_alg».proof.Proof.KI.Chain
import proofs.«428498_j27358941675990_1_alg».proof.Proof.Ref.Run
import proofs.«428498_j27358941675990_1_alg».proof.Proof.Ref.Val
import Idealize.ShloMosaic.Adequacy
import Idealize.ShloMosaic.Init

noncomputable section

namespace Cert.Proof

open Idealize.ShloMosaic Idealize.SL.Sem

/-- No operation of the reference writes an argument. -/
theorem frame_reference : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono
    (fun r h c => by and_intros <;> exact (h c _).trans (Cert.ReferenceIdeal.Hand.arg_kept m c (by decide)))
    (Cert.ReferenceIdeal.Hand.run (F := Ideal) m ρ)

/-- Both runs end at the network's two results of their own arguments, and the arguments agree; the witnesses are the kernel program's own final values. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) :=
  fun m ρ m' ρ' _ hagree =>
    ⟨fun c => Cert.KernelIdeal.Hand.W17 m ρ c (Proc.devRef .tc Cert.KernelIdeal.main_v56),
     fun c => Cert.KernelIdeal.Hand.W17 m ρ c (Proc.devRef .tc Cert.KernelIdeal.main_v57),
     (θ_run (Cert.KernelIdeal.defs (F := Ideal)) _ _).mono (fun r h c => by
        refine ⟨h c _ (Cert.KernelIdeal.Hand.mem_uc Cert.KernelIdeal.main_v56 (by decide)),
          h c _ (Cert.KernelIdeal.Hand.mem_uc Cert.KernelIdeal.main_v57 (by decide)), ?_⟩
        and_intros <;> exact (h c _ (Cert.KernelIdeal.Hand.mem_uc _ (by decide))).trans (Cert.KernelIdeal.Hand.W17_kept m ρ c _ (by decide)))
      (Cert.KernelIdeal.Hand.run (F := Ideal) m ρ),
     (θ_run (Cert.ReferenceIdeal.defs (F := Ideal)) _ _).mono (fun r h c => by
        obtain ⟨e0, e1, e2, e3, e4, e5, e6, e7, e8, e9, e10, e11, e12⟩ := hagree c
        refine ⟨(h c _).trans ((Cert.ReferenceIdeal.Hand.out0_eq m' c).trans ?_), (h c _).trans ((Cert.ReferenceIdeal.Hand.out1_eq m' c).trans ?_), ?_⟩
        · rw [e0, e1, e2, e3, e4, e5, e6, e7, e8, e9, e10, e11, e12]; exact (Cert.KernelIdeal.Hand.kernel_out0 m ρ c).symm
        · rw [e0, e1, e2, e3, e4, e5, e6, e7, e8, e9, e10, e11, e12]; exact (Cert.KernelIdeal.Hand.kernel_out1 m ρ c).symm
        · and_intros <;> exact (h c _).trans (Cert.ReferenceIdeal.Hand.arg_kept m' c (by decide)))
      (Cert.ReferenceIdeal.Hand.run (F := Ideal) m' ρ')⟩

theorem claim : Cert.Claim := ⟨Cert.Kernel.Gen.facts, Cert.KernelIdeal.Gen.facts, Cert.ReferenceIdeal.Gen.facts, Cert.Pre_finite_inputs.Gen.facts,
  fun m ρ _ => (θ_run (Cert.Kernel.defs (F := Bits)) _ _).mono (fun r h c => by
      and_intros <;> exact (h c _ (Cert.Kernel.Hand.mem_uc _ (by decide))).trans (Cert.Kernel.Hand.W17_kept m ρ c _ (by decide)))
    (Cert.Kernel.Hand.run m ρ),
  fun m ρ _ => (θ_run (Cert.KernelIdeal.defs (F := Ideal)) _ _).mono (fun r h c => by
      and_intros <;> exact (h c _ (Cert.KernelIdeal.Hand.mem_uc _ (by decide))).trans (Cert.KernelIdeal.Hand.W17_kept m ρ c _ (by decide)))
    (Cert.KernelIdeal.Hand.run m ρ),
  frame_reference, trivial, algebraic⟩

end Cert.Proof

end
